-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x5000000 : Shape := ⟨2, ![2, 5000000]⟩
abbrev S_ : Shape := ⟨0, ![]⟩
abbrev S8x16 : Shape := ⟨2, ![8, 16]⟩
abbrev S16 : Shape := ⟨1, ![16]⟩
abbrev S16x16 : Shape := ⟨2, ![16, 16]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  reducesTo_S_S_d : S_.ReducesTo [] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part7 {F : FTy → Type} [FloatOps F] (main_arg26 : FVec F S16 .f32) (main_arg27 : FVec F S16 .f32) (main_arg28 : FVec F S16 .f32) (main_v115 : IVec S_ 1) (main_v118 : IVec S16x16 1) : IVec S_ 1 :=
  let main_c_47 : IVec S_ 1 := constantI S_ 1 1#1
  let main_v119 : IVec S_ 1 := (fun x v => Host.reduce IntOp.andi x v reducesTo_S16x16_S_d0_1 h_S_) main_v118 main_c_47
  let main_v120 : IVec S_ 1 := andi main_v115 main_v119
  let main_v121 : FVec F S16 .f32 := Host.absf main_arg26
  let main_cst_48 : FVec F S_ .f32 := constant S_ .f32 0x7F800000#32
  let main_v122 : FVec F S16 .f32 := broadcastInDim S16 ![] bcast_S_S16 main_cst_48
  let main_v123 : IVec S16 1 := cmpf .olt main_v121 main_v122
  let main_c_49 : IVec S_ 1 := constantI S_ 1 1#1
  let main_v124 : IVec S_ 1 := (fun x v => Host.reduce IntOp.andi x v reducesTo_S16_S_d0 h_S_) main_v123 main_c_49
  let main_v125 : IVec S_ 1 := andi main_v120 main_v124
  let main_v126 : FVec F S16 .f32 := Host.absf main_arg27
  let main_cst_50 : FVec F S_ .f32 := constant S_ .f32 0x7F800000#32
  let main_v127 : FVec F S16 .f32 := broadcastInDim S16 ![] bcast_S_S16 main_cst_50
  let main_v128 : IVec S16 1 := cmpf .olt main_v126 main_v127
  let main_c_51 : IVec S_ 1 := constantI S_ 1 1#1
  let main_v129 : IVec S_ 1 := (fun x v => Host.reduce IntOp.andi x v reducesTo_S16_S_d0 h_S_) main_v128 main_c_51
  let main_v130 : IVec S_ 1 := andi main_v125 main_v129
  let main_v131 : FVec F S16 .f32 := Host.absf main_arg28
  let main_cst_52 : FVec F S_ .f32 := constant S_ .f32 0x7F800000#32
  let main_v132 : FVec F S16 .f32 := broadcastInDim S16 ![] bcast_S_S16 main_cst_52
  let main_v133 : IVec S16 1 := cmpf .olt main_v131 main_v132
  let main_c_53 : IVec S_ 1 := constantI S_ 1 1#1
  let main_v134 : IVec S_ 1 := (fun x v => Host.reduce IntOp.andi x v reducesTo_S16_S_d0 h_S_) main_v133 main_c_53
  let main_v135 : IVec S_ 1 := andi main_v130 main_v134
  main_v135

def fn_part6 {F : FTy → Type} [FloatOps F] (main_arg23 : FVec F S16x16 .f32) (main_arg24 : FVec F S16 .f32) (main_arg25 : FVec F S16x16 .f32) (main_arg26 : FVec F S16 .f32) (main_arg27 : FVec F S16 .f32) (main_arg28 : FVec F S16 .f32) (main_v100 : IVec S_ 1) (main_v101 : FVec F S16 .f32) : IVec S_ 1 :=
  let main_cst_40 : FVec F S_ .f32 := constant S_ .f32 0x7F800000#32
  let main_v102 : FVec F S16 .f32 := broadcastInDim S16 ![] bcast_S_S16 main_cst_40
  let main_v103 : IVec S16 1 := cmpf .olt main_v101 main_v102
  let main_c_41 : IVec S_ 1 := constantI S_ 1 1#1
  let main_v104 : IVec S_ 1 := (fun x v => Host.reduce IntOp.andi x v reducesTo_S16_S_d0 h_S_) main_v103 main_c_41
  let main_v105 : IVec S_ 1 := andi main_v100 main_v104
  let main_v106 : FVec F S16x16 .f32 := Host.absf main_arg23
  let main_cst_42 : FVec F S_ .f32 := constant S_ .f32 0x7F800000#32
  let main_v107 : FVec F S16x16 .f32 := broadcastInDim S16x16 ![] bcast_S_S16x16 main_cst_42
  let main_v108 : IVec S16x16 1 := cmpf .olt main_v106 main_v107
  let main_c_43 : IVec S_ 1 := constantI S_ 1 1#1
  let main_v109 : IVec S_ 1 := (fun x v => Host.reduce IntOp.andi x v reducesTo_S16x16_S_d0_1 h_S_) main_v108 main_c_43
  let main_v110 : IVec S_ 1 := andi main_v105 main_v109
  let main_v111 : FVec F S16 .f32 := Host.absf main_arg24
  let main_cst_44 : FVec F S_ .f32 := constant S_ .f32 0x7F800000#32
  let main_v112 : FVec F S16 .f32 := broadcastInDim S16 ![] bcast_S_S16 main_cst_44
  let main_v113 : IVec S16 1 := cmpf .olt main_v111 main_v112
  let main_c_45 : IVec S_ 1 := constantI S_ 1 1#1
  let main_v114 : IVec S_ 1 := (fun x v => Host.reduce IntOp.andi x v reducesTo_S16_S_d0 h_S_) main_v113 main_c_45
  let main_v115 : IVec S_ 1 := andi main_v110 main_v114
  let main_v116 : FVec F S16x16 .f32 := Host.absf main_arg25
  let main_cst_46 : FVec F S_ .f32 := constant S_ .f32 0x7F800000#32
  let main_v117 : FVec F S16x16 .f32 := broadcastInDim S16x16 ![] bcast_S_S16x16 main_cst_46
  let main_v118 : IVec S16x16 1 := cmpf .olt main_v116 main_v117
  fn_part7 (F := F) main_arg26 main_arg27 main_arg28 main_v115 main_v118

def fn_part5 {F : FTy → Type} [FloatOps F] (main_arg19 : FVec F S16 .f32) (main_arg20 : FVec F S_ .f32) (main_arg21 : FVec F S16x16 .f32) (main_arg22 : FVec F S16 .f32) (main_arg23 : FVec F S16x16 .f32) (main_arg24 : FVec F S16 .f32) (main_arg25 : FVec F S16x16 .f32) (main_arg26 : FVec F S16 .f32) (main_arg27 : FVec F S16 .f32) (main_arg28 : FVec F S16 .f32) (main_v81 : IVec S_ 1) (main_v84 : IVec S16 1) : IVec S_ 1 :=
  let main_c_33 : IVec S_ 1 := constantI S_ 1 1#1
  let main_v85 : IVec S_ 1 := (fun x v => Host.reduce IntOp.andi x v reducesTo_S16_S_d0 h_S_) main_v84 main_c_33
  let main_v86 : IVec S_ 1 := andi main_v81 main_v85
  let main_v87 : FVec F S16 .f32 := Host.absf main_arg19
  let main_cst_34 : FVec F S_ .f32 := constant S_ .f32 0x7F800000#32
  let main_v88 : FVec F S16 .f32 := broadcastInDim S16 ![] bcast_S_S16 main_cst_34
  let main_v89 : IVec S16 1 := cmpf .olt main_v87 main_v88
  let main_c_35 : IVec S_ 1 := constantI S_ 1 1#1
  let main_v90 : IVec S_ 1 := (fun x v => Host.reduce IntOp.andi x v reducesTo_S16_S_d0 h_S_) main_v89 main_c_35
  let main_v91 : IVec S_ 1 := andi main_v86 main_v90
  let main_v92 : FVec F S_ .f32 := Host.absf main_arg20
  let main_cst_36 : FVec F S_ .f32 := constant S_ .f32 0x7F800000#32
  let main_v93 : IVec S_ 1 := cmpf .olt main_v92 main_cst_36
  let main_c_37 : IVec S_ 1 := constantI S_ 1 1#1
  let main_v94 : IVec S_ 1 := (fun x v => Host.reduce IntOp.andi x v reducesTo_S_S_d h_S_) main_v93 main_c_37
  let main_v95 : IVec S_ 1 := andi main_v91 main_v94
  let main_v96 : FVec F S16x16 .f32 := Host.absf main_arg21
  let main_cst_38 : FVec F S_ .f32 := constant S_ .f32 0x7F800000#32
  let main_v97 : FVec F S16x16 .f32 := broadcastInDim S16x16 ![] bcast_S_S16x16 main_cst_38
  let main_v98 : IVec S16x16 1 := cmpf .olt main_v96 main_v97
  let main_c_39 : IVec S_ 1 := constantI S_ 1 1#1
  let main_v99 : IVec S_ 1 := (fun x v => Host.reduce IntOp.andi x v reducesTo_S16x16_S_d0_1 h_S_) main_v98 main_c_39
  let main_v100 : IVec S_ 1 := andi main_v95 main_v99
  let main_v101 : FVec F S16 .f32 := Host.absf main_arg22
  fn_part6 (F := F) main_arg23 main_arg24 main_arg25 main_arg26 main_arg27 main_arg28 main_v100 main_v101

def fn_part4 {F : FTy → Type} [FloatOps F] (main_arg16 : FVec F S16x16 .f32) (main_arg17 : FVec F S16 .f32) (main_arg18 : FVec F S16 .f32) (main_arg19 : FVec F S16 .f32) (main_arg20 : FVec F S_ .f32) (main_arg21 : FVec F S16x16 .f32) (main_arg22 : FVec F S16 .f32) (main_arg23 : FVec F S16x16 .f32) (main_arg24 : FVec F S16 .f32) (main_arg25 : FVec F S16x16 .f32) (main_arg26 : FVec F S16 .f32) (main_arg27 : FVec F S16 .f32) (main_arg28 : FVec F S16 .f32) (main_v66 : IVec S_ 1) (main_v67 : FVec F S16 .f32) : IVec S_ 1 :=
  let main_cst_26 : FVec F S_ .f32 := constant S_ .f32 0x7F800000#32
  let main_v68 : FVec F S16 .f32 := broadcastInDim S16 ![] bcast_S_S16 main_cst_26
  let main_v69 : IVec S16 1 := cmpf .olt main_v67 main_v68
  let main_c_27 : IVec S_ 1 := constantI S_ 1 1#1
  let main_v70 : IVec S_ 1 := (fun x v => Host.reduce IntOp.andi x v reducesTo_S16_S_d0 h_S_) main_v69 main_c_27
  let main_v71 : IVec S_ 1 := andi main_v66 main_v70
  let main_v72 : FVec F S16x16 .f32 := Host.absf main_arg16
  let main_cst_28 : FVec F S_ .f32 := constant S_ .f32 0x7F800000#32
  let main_v73 : FVec F S16x16 .f32 := broadcastInDim S16x16 ![] bcast_S_S16x16 main_cst_28
  let main_v74 : IVec S16x16 1 := cmpf .olt main_v72 main_v73
  let main_c_29 : IVec S_ 1 := constantI S_ 1 1#1
  let main_v75 : IVec S_ 1 := (fun x v => Host.reduce IntOp.andi x v reducesTo_S16x16_S_d0_1 h_S_) main_v74 main_c_29
  let main_v76 : IVec S_ 1 := andi main_v71 main_v75
  let main_v77 : FVec F S16 .f32 := Host.absf main_arg17
  let main_cst_30 : FVec F S_ .f32 := constant S_ .f32 0x7F800000#32
  let main_v78 : FVec F S16 .f32 := broadcastInDim S16 ![] bcast_S_S16 main_cst_30
  let main_v79 : IVec S16 1 := cmpf .olt main_v77 main_v78
  let main_c_31 : IVec S_ 1 := constantI S_ 1 1#1
  let main_v80 : IVec S_ 1 := (fun x v => Host.reduce IntOp.andi x v reducesTo_S16_S_d0 h_S_) main_v79 main_c_31
  let main_v81 : IVec S_ 1 := andi main_v76 main_v80
  let main_v82 : FVec F S16 .f32 := Host.absf main_arg18
  let main_cst_32 : FVec F S_ .f32 := constant S_ .f32 0x7F800000#32
  let main_v83 : FVec F S16 .f32 := broadcastInDim S16 ![] bcast_S_S16 main_cst_32
  let main_v84 : IVec S16 1 := cmpf .olt main_v82 main_v83
  fn_part5 (F := F) main_arg19 main_arg20 main_arg21 main_arg22 main_arg23 main_arg24 main_arg25 main_arg26 main_arg27 main_arg28 main_v81 main_v84

def fn_part3 {F : FTy → Type} [FloatOps F] (main_arg12 : FVec F S16x16 .f32) (main_arg13 : FVec F S16 .f32) (main_arg14 : FVec F S16x16 .f32) (main_arg15 : FVec F S16 .f32) (main_arg16 : FVec F S16x16 .f32) (main_arg17 : FVec F S16 .f32) (main_arg18 : FVec F S16 .f32) (main_arg19 : FVec F S16 .f32) (main_arg20 : FVec F S_ .f32) (main_arg21 : FVec F S16x16 .f32) (main_arg22 : FVec F S16 .f32) (main_arg23 : FVec F S16x16 .f32) (main_arg24 : FVec F S16 .f32) (main_arg25 : FVec F S16x16 .f32) (main_arg26 : FVec F S16 .f32) (main_arg27 : FVec F S16 .f32) (main_arg28 : FVec F S16 .f32) (main_v47 : IVec S_ 1) (main_v49 : IVec S_ 1) (main_c_19 : IVec S_ 1) : IVec S_ 1 :=
  let main_v50 : IVec S_ 1 := (fun x v => Host.reduce IntOp.andi x v reducesTo_S_S_d h_S_) main_v49 main_c_19
  let main_v51 : IVec S_ 1 := andi main_v47 main_v50
  let main_v52 : FVec F S16x16 .f32 := Host.absf main_arg12
  let main_cst_20 : FVec F S_ .f32 := constant S_ .f32 0x7F800000#32
  let main_v53 : FVec F S16x16 .f32 := broadcastInDim S16x16 ![] bcast_S_S16x16 main_cst_20
  let main_v54 : IVec S16x16 1 := cmpf .olt main_v52 main_v53
  let main_c_21 : IVec S_ 1 := constantI S_ 1 1#1
  let main_v55 : IVec S_ 1 := (fun x v => Host.reduce IntOp.andi x v reducesTo_S16x16_S_d0_1 h_S_) main_v54 main_c_21
  let main_v56 : IVec S_ 1 := andi main_v51 main_v55
  let main_v57 : FVec F S16 .f32 := Host.absf main_arg13
  let main_cst_22 : FVec F S_ .f32 := constant S_ .f32 0x7F800000#32
  let main_v58 : FVec F S16 .f32 := broadcastInDim S16 ![] bcast_S_S16 main_cst_22
  let main_v59 : IVec S16 1 := cmpf .olt main_v57 main_v58
  let main_c_23 : IVec S_ 1 := constantI S_ 1 1#1
  let main_v60 : IVec S_ 1 := (fun x v => Host.reduce IntOp.andi x v reducesTo_S16_S_d0 h_S_) main_v59 main_c_23
  let main_v61 : IVec S_ 1 := andi main_v56 main_v60
  let main_v62 : FVec F S16x16 .f32 := Host.absf main_arg14
  let main_cst_24 : FVec F S_ .f32 := constant S_ .f32 0x7F800000#32
  let main_v63 : FVec F S16x16 .f32 := broadcastInDim S16x16 ![] bcast_S_S16x16 main_cst_24
  let main_v64 : IVec S16x16 1 := cmpf .olt main_v62 main_v63
  let main_c_25 : IVec S_ 1 := constantI S_ 1 1#1
  let main_v65 : IVec S_ 1 := (fun x v => Host.reduce IntOp.andi x v reducesTo_S16x16_S_d0_1 h_S_) main_v64 main_c_25
  let main_v66 : IVec S_ 1 := andi main_v61 main_v65
  let main_v67 : FVec F S16 .f32 := Host.absf main_arg15
  fn_part4 (F := F) main_arg16 main_arg17 main_arg18 main_arg19 main_arg20 main_arg21 main_arg22 main_arg23 main_arg24 main_arg25 main_arg26 main_arg27 main_arg28 main_v66 main_v67

def fn_part2 {F : FTy → Type} [FloatOps F] (main_arg9 : FVec F S16 .f32) (main_arg10 : FVec F S16 .f32) (main_arg11 : FVec F S_ .f32) (main_arg12 : FVec F S16x16 .f32) (main_arg13 : FVec F S16 .f32) (main_arg14 : FVec F S16x16 .f32) (main_arg15 : FVec F S16 .f32) (main_arg16 : FVec F S16x16 .f32) (main_arg17 : FVec F S16 .f32) (main_arg18 : FVec F S16 .f32) (main_arg19 : FVec F S16 .f32) (main_arg20 : FVec F S_ .f32) (main_arg21 : FVec F S16x16 .f32) (main_arg22 : FVec F S16 .f32) (main_arg23 : FVec F S16x16 .f32) (main_arg24 : FVec F S16 .f32) (main_arg25 : FVec F S16x16 .f32) (main_arg26 : FVec F S16 .f32) (main_arg27 : FVec F S16 .f32) (main_arg28 : FVec F S16 .f32) (main_v32 : IVec S_ 1) (main_v33 : FVec F S16 .f32) : IVec S_ 1 :=
  let main_cst_12 : FVec F S_ .f32 := constant S_ .f32 0x7F800000#32
  let main_v34 : FVec F S16 .f32 := broadcastInDim S16 ![] bcast_S_S16 main_cst_12
  let main_v35 : IVec S16 1 := cmpf .olt main_v33 main_v34
  let main_c_13 : IVec S_ 1 := constantI S_ 1 1#1
  let main_v36 : IVec S_ 1 := (fun x v => Host.reduce IntOp.andi x v reducesTo_S16_S_d0 h_S_) main_v35 main_c_13
  let main_v37 : IVec S_ 1 := andi main_v32 main_v36
  let main_v38 : FVec F S16 .f32 := Host.absf main_arg9
  let main_cst_14 : FVec F S_ .f32 := constant S_ .f32 0x7F800000#32
  let main_v39 : FVec F S16 .f32 := broadcastInDim S16 ![] bcast_S_S16 main_cst_14
  let main_v40 : IVec S16 1 := cmpf .olt main_v38 main_v39
  let main_c_15 : IVec S_ 1 := constantI S_ 1 1#1
  let main_v41 : IVec S_ 1 := (fun x v => Host.reduce IntOp.andi x v reducesTo_S16_S_d0 h_S_) main_v40 main_c_15
  let main_v42 : IVec S_ 1 := andi main_v37 main_v41
  let main_v43 : FVec F S16 .f32 := Host.absf main_arg10
  let main_cst_16 : FVec F S_ .f32 := constant S_ .f32 0x7F800000#32
  let main_v44 : FVec F S16 .f32 := broadcastInDim S16 ![] bcast_S_S16 main_cst_16
  let main_v45 : IVec S16 1 := cmpf .olt main_v43 main_v44
  let main_c_17 : IVec S_ 1 := constantI S_ 1 1#1
  let main_v46 : IVec S_ 1 := (fun x v => Host.reduce IntOp.andi x v reducesTo_S16_S_d0 h_S_) main_v45 main_c_17
  let main_v47 : IVec S_ 1 := andi main_v42 main_v46
  let main_v48 : FVec F S_ .f32 := Host.absf main_arg11
  let main_cst_18 : FVec F S_ .f32 := constant S_ .f32 0x7F800000#32
  let main_v49 : IVec S_ 1 := cmpf .olt main_v48 main_cst_18
  let main_c_19 : IVec S_ 1 := constantI S_ 1 1#1
  fn_part3 (F := F) main_arg12 main_arg13 main_arg14 main_arg15 main_arg16 main_arg17 main_arg18 main_arg19 main_arg20 main_arg21 main_arg22 main_arg23 main_arg24 main_arg25 main_arg26 main_arg27 main_arg28 main_v47 main_v49 main_c_19

def fn_part1 {F : FTy → Type} [FloatOps F] (main_arg5 : FVec F S16x16 .f32) (main_arg6 : FVec F S16 .f32) (main_arg7 : FVec F S8x16 .f32) (main_arg8 : FVec F S16 .f32) (main_arg9 : FVec F S16 .f32) (main_arg10 : FVec F S16 .f32) (main_arg11 : FVec F S_ .f32) (main_arg12 : FVec F S16x16 .f32) (main_arg13 : FVec F S16 .f32) (main_arg14 : FVec F S16x16 .f32) (main_arg15 : FVec F S16 .f32) (main_arg16 : FVec F S16x16 .f32) (main_arg17 : FVec F S16 .f32) (main_arg18 : FVec F S16 .f32) (main_arg19 : FVec F S16 .f32) (main_arg20 : FVec F S_ .f32) (main_arg21 : FVec F S16x16 .f32) (main_arg22 : FVec F S16 .f32) (main_arg23 : FVec F S16x16 .f32) (main_arg24 : FVec F S16 .f32) (main_arg25 : FVec F S16x16 .f32) (main_arg26 : FVec F S16 .f32) (main_arg27 : FVec F S16 .f32) (main_arg28 : FVec F S16 .f32) (main_v12 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v12 main_v16
  let main_v18 : FVec F S16x16 .f32 := Host.absf main_arg5
  let main_cst_6 : FVec F S_ .f32 := constant S_ .f32 0x7F800000#32
  let main_v19 : FVec F S16x16 .f32 := broadcastInDim S16x16 ![] bcast_S_S16x16 main_cst_6
  let main_v20 : IVec S16x16 1 := cmpf .olt main_v18 main_v19
  let main_c_7 : IVec S_ 1 := constantI S_ 1 1#1
  let main_v21 : IVec S_ 1 := (fun x v => Host.reduce IntOp.andi x v reducesTo_S16x16_S_d0_1 h_S_) main_v20 main_c_7
  let main_v22 : IVec S_ 1 := andi main_v17 main_v21
  let main_v23 : FVec F S16 .f32 := Host.absf main_arg6
  let main_cst_8 : FVec F S_ .f32 := constant S_ .f32 0x7F800000#32
  let main_v24 : FVec F S16 .f32 := broadcastInDim S16 ![] bcast_S_S16 main_cst_8
  let main_v25 : IVec S16 1 := cmpf .olt main_v23 main_v24
  let main_c_9 : IVec S_ 1 := constantI S_ 1 1#1
  let main_v26 : IVec S_ 1 := (fun x v => Host.reduce IntOp.andi x v reducesTo_S16_S_d0 h_S_) main_v25 main_c_9
  let main_v27 : IVec S_ 1 := andi main_v22 main_v26
  let main_v28 : FVec F S8x16 .f32 := Host.absf main_arg7
  let main_cst_10 : FVec F S_ .f32 := constant S_ .f32 0x7F800000#32
  let main_v29 : FVec F S8x16 .f32 := broadcastInDim S8x16 ![] bcast_S_S8x16 main_cst_10
  let main_v30 : IVec S8x16 1 := cmpf .olt main_v28 main_v29
  let main_c_11 : IVec S_ 1 := constantI S_ 1 1#1
  let main_v31 : IVec S_ 1 := (fun x v => Host.reduce IntOp.andi x v reducesTo_S8x16_S_d0_1 h_S_) main_v30 main_c_11
  let main_v32 : IVec S_ 1 := andi main_v27 main_v31
  let main_v33 : FVec F S16 .f32 := Host.absf main_arg8
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v32 main_v33

def fn {F : FTy → Type} [FloatOps F] (main_arg0 : FVec F S100000x8 .f32) (main_arg1 : IVec S2x5000000 32) (main_arg2 : FVec F S_ .f32) (main_arg3 : FVec F S8x16 .f32) (main_arg4 : FVec F S16 .f32) (main_arg5 : FVec F S16x16 .f32) (main_arg6 : FVec F S16 .f32) (main_arg7 : FVec F S8x16 .f32) (main_arg8 : FVec F S16 .f32) (main_arg9 : FVec F S16 .f32) (main_arg10 : FVec F S16 .f32) (main_arg11 : FVec F S_ .f32) (main_arg12 : FVec F S16x16 .f32) (main_arg13 : FVec F S16 .f32) (main_arg14 : FVec F S16x16 .f32) (main_arg15 : FVec F S16 .f32) (main_arg16 : FVec F S16x16 .f32) (main_arg17 : FVec F S16 .f32) (main_arg18 : FVec F S16 .f32) (main_arg19 : FVec F S16 .f32) (main_arg20 : FVec F S_ .f32) (main_arg21 : FVec F S16x16 .f32) (main_arg22 : FVec F S16 .f32) (main_arg23 : FVec F S16x16 .f32) (main_arg24 : FVec F S16 .f32) (main_arg25 : FVec F S16x16 .f32) (main_arg26 : FVec F S16 .f32) (main_arg27 : FVec F S16 .f32) (main_arg28 : FVec F S16 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S8x16 .f32 := Host.absf main_arg3
  let main_cst_2 : FVec F S_ .f32 := constant S_ .f32 0x7F800000#32
  let main_v9 : FVec F S8x16 .f32 := broadcastInDim S8x16 ![] bcast_S_S8x16 main_cst_2
  let main_v10 : IVec S8x16 1 := cmpf .olt main_v8 main_v9
  let main_c_3 : IVec S_ 1 := constantI S_ 1 1#1
  let main_v11 : IVec S_ 1 := (fun x v => Host.reduce IntOp.andi x v reducesTo_S8x16_S_d0_1 h_S_) main_v10 main_c_3
  let main_v12 : IVec S_ 1 := andi main_v7 main_v11
  let main_v13 : FVec F S16 .f32 := Host.absf main_arg4
  let main_cst_4 : FVec F S_ .f32 := constant S_ .f32 0x7F800000#32
  let main_v14 : FVec F S16 .f32 := broadcastInDim S16 ![] bcast_S_S16 main_cst_4
  let main_v15 : IVec S16 1 := cmpf .olt main_v13 main_v14
  let main_c_5 : IVec S_ 1 := constantI S_ 1 1#1
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v12 main_v15 main_c_5
-- ==== Kernel.lean ====
abbrev S100000x8 : Shape := ⟨2, ![100000, 8]⟩
abbrev S2x5000000 : Shape := ⟨2, ![2, 5000000]⟩
abbrev S_ : Shape := ⟨0, ![]⟩
abbrev S8x16 : Shape := ⟨2, ![8, 16]⟩
abbrev S16 : Shape := ⟨1, ![16]⟩
abbrev S16x16 : Shape := ⟨2, ![16, 16]⟩
abbrev S1x5000000 : Shape := ⟨2, ![1, 5000000]⟩
abbrev S5000000 : Shape := ⟨1, ![5000000]⟩
abbrev S5000000x1 : Shape := ⟨2, ![5000000, 1]⟩
abbrev S5000000x8 : Shape := ⟨2, ![5000000, 8]⟩
abbrev S8000x8 : Shape := ⟨2, ![8000, 8]⟩
abbrev S8000x1 : Shape := ⟨2, ![8000, 1]⟩
abbrev S2000x8 : Shape := ⟨2, ![2000, 8]⟩
abbrev S1x2000 : Shape := ⟨2, ![1, 2000]⟩
abbrev S8000x2000 : Shape := ⟨2, ![8000, 2000]⟩
abbrev S100000x16 : Shape := ⟨2, ![100000, 16]⟩
abbrev S1x16 : Shape := ⟨2, ![1, 16]⟩
abbrev S5000000x16 : Shape := ⟨2, ![5000000, 16]⟩
abbrev S8000x16 : Shape := ⟨2, ![8000, 16]⟩
abbrev S2000x16 : Shape := ⟨2, ![2000, 16]⟩

abbrev nBuf : Space → Nat
  | .hbm => 264
  | .vmem => 21
  | .smem => 0
  | _ => 0

abbrev hbmTy0_0 (i : Nat) : BufTy := match i % 128 with
  | 0 => ⟨S100000x8, .f32⟩
  | 1 => ⟨S2x5000000, .i32⟩
  | 2 => ⟨S_, .f32⟩
  | 3 => ⟨S8x16, .f32⟩
  | 4 => ⟨S16, .f32⟩
  | 5 => ⟨S16x16, .f32⟩
  | 6 => ⟨S16, .f32⟩
  | 7 => ⟨S8x16, .f32⟩
  | 8 => ⟨S16, .f32⟩
  | 9 => ⟨S16, .f32⟩
  | 10 => ⟨S16, .f32⟩
  | 11 => ⟨S_, .f32⟩
  | 12 => ⟨S16x16, .f32⟩
  | 13 => ⟨S16, .f32⟩
  | 14 => ⟨S16x16, .f32⟩
  | 15 => ⟨S16, .f32⟩
  | 16 => ⟨S16x16, .f32⟩
  | 17 => ⟨S16, .f32⟩
  | 18 => ⟨S16, .f32⟩
  | 19 => ⟨S16, .f32⟩
  | 20 => ⟨S_, .f32⟩
  | 21 => ⟨S16x16, .f32⟩
  | 22 => ⟨S16, .f32⟩
  | 23 => ⟨S16x16, .f32⟩
  | 24 => ⟨S16, .f32⟩
  | 25 => ⟨S16x16, .f32⟩
  | 26 => ⟨S16, .f32⟩
  | 27 => ⟨S16, .f32⟩
  | 28 => ⟨S16, .f32⟩
  | 29 => ⟨S1x5000000, .i32⟩
  | 30 => ⟨S5000000, .i32⟩
  | 31 => ⟨S1x5000000, .i32⟩
  | 32 => ⟨S5000000, .i32⟩
  | 33 => ⟨S5000000x1, .i32⟩
  | 34 => ⟨S_, .i32⟩
  | 35 => ⟨S5000000, .i32⟩
  | 36 => ⟨S5000000, .i1⟩
  | 37 => ⟨S_, .i32⟩
  | 38 => ⟨S5000000, .i32⟩
  | 39 => ⟨S5000000, .i32⟩
  | 40 => ⟨S5000000, .i32⟩
  | 41 => ⟨S5000000x1, .i32⟩
  | 42 => ⟨S5000000x8, .f32⟩
  | 43 => ⟨S100000x8, .f32⟩
  | 44 => ⟨S_, .f32⟩
  | 45 => ⟨S_, .f32⟩
  | 46 => ⟨S100000x8, .f32⟩
  | 47 => ⟨S100000x8, .f32⟩
  | 48 => ⟨S100000x8, .f32⟩
  | 49 => ⟨S100000x16, .f32⟩
  | 50 => ⟨S1x16, .f32⟩
  | 51 => ⟨S100000x16, .f32⟩
  | 52 => ⟨S100000x16, .f32⟩
  | 53 => ⟨S_, .f32⟩
  | 54 => ⟨S_, .f32⟩
  | 55 => ⟨S100000x16, .f32⟩
  | 56 => ⟨S100000x16, .i1⟩
  | 57 => ⟨S_, .f32⟩
  | 58 => ⟨S100000x16, .f32⟩
  | 59 => ⟨S100000x16, .f32⟩
  | 60 => ⟨S100000x16, .f32⟩
  | 61 => ⟨S100000x16, .f32⟩
  | 62 => ⟨S1x16, .f32⟩
  | 63 => ⟨S100000x16, .f32⟩
  | 64 => ⟨S100000x16, .f32⟩
  | 65 => ⟨S100000x16, .f32⟩
  | 66 => ⟨S1x16, .f32⟩
  | 67 => ⟨S100000x16, .f32⟩
  | 68 => ⟨S100000x16, .f32⟩
  | 69 => ⟨S100000x16, .f32⟩
  | 70 => ⟨S_, .f32⟩
  | 71 => ⟨S16, .f32⟩
  | 72 => ⟨S_, .f32⟩
  | 73 => ⟨S16, .f32⟩
  | 74 => ⟨S16, .f32⟩
  | 75 => ⟨S_, .i32⟩
  | 76 => ⟨S_, .f32⟩
  | 77 => ⟨S16, .f32⟩
  | 78 => ⟨S1x16, .f32⟩
  | 79 => ⟨S_, .f32⟩
  | 80 => ⟨S1x16, .f32⟩
  | 81 => ⟨S1x16, .f32⟩
  | 82 => ⟨S100000x16, .f32⟩
  | 83 => ⟨S100000x16, .f32⟩
  | 84 => ⟨S100000x16, .f32⟩
  | 85 => ⟨S_, .f32⟩
  | 86 => ⟨S_, .f32⟩
  | 87 => ⟨S_, .f32⟩
  | 88 => ⟨S_, .f32⟩
  | 89 => ⟨S16, .f32⟩
  | 90 => ⟨S16, .f32⟩
  | 91 => ⟨S16, .f32⟩
  | 92 => ⟨S_, .f32⟩
  | 93 => ⟨S_, .i1⟩
  | 94 => ⟨S_, .f32⟩
  | 95 => ⟨S_, .f32⟩
  | 96 => ⟨S16, .f32⟩
  | 97 => ⟨S16, .f32⟩
  | 98 => ⟨S1x16, .f32⟩
  | 99 => ⟨S100000x16, .f32⟩
  | 100 => ⟨S100000x16, .f32⟩
  | 101 => ⟨S_, .f32⟩
  | 102 => ⟨S16, .f32⟩
  | 103 => ⟨S16, .f32⟩
  | 104 => ⟨S16, .f32⟩
  | 105 => ⟨S1x16, .f32⟩
  | 106 => ⟨S100000x16, .f32⟩
  | 107 => ⟨S100000x16, .f32⟩
  | 108 => ⟨S1x16, .f32⟩
  | 109 => ⟨S100000x16, .f32⟩
  | 110 => ⟨S100000x16, .f32⟩
  | 111 => ⟨S1x16, .f32⟩
  | 112 => ⟨S100000x16, .f32⟩
  | 113 => ⟨S100000x16, .f32⟩
  | 114 => ⟨S_, .i32⟩
  | 115 => ⟨S5000000, .i32⟩
  | 116 => ⟨S5000000, .i1⟩
  | 117 => ⟨S_, .i32⟩
  | 118 => ⟨S5000000, .i32⟩
  | 119 => ⟨S5000000, .i32⟩
  | 120 => ⟨S5000000, .i32⟩
  | 121 => ⟨S5000000x1, .i32⟩
  | 122 => ⟨S5000000x16, .f32⟩
  | 123 => ⟨S100000x16, .f32⟩
  | 124 => ⟨S_, .f32⟩
  | 125 => ⟨S_, .f32⟩
  | 126 => ⟨S100000x16, .f32⟩
  | 127 => ⟨S100000x16, .f32⟩
  | _ => ⟨S100000x8, .f32⟩

abbrev hbmTy0_1 (i : Nat) : BufTy := match i % 128 with
  | 0 => ⟨S100000x16, .f32⟩
  | 1 => ⟨S100000x16, .f32⟩
  | 2 => ⟨S1x16, .f32⟩
  | 3 => ⟨S100000x16, .f32⟩
  | 4 => ⟨S100000x16, .f32⟩
  | 5 => ⟨S_, .f32⟩
  | 6 => ⟨S100000x16, .f32⟩
  | 7 => ⟨S100000x16, .f32⟩
  | 8 => ⟨S100000x16, .f32⟩
  | 9 => ⟨S1x16, .f32⟩
  | 10 => ⟨S100000x16, .f32⟩
  | 11 => ⟨S100000x16, .f32⟩
  | 12 => ⟨S100000x16, .f32⟩
  | 13 => ⟨S1x16, .f32⟩
  | 14 => ⟨S100000x16, .f32⟩
  | 15 => ⟨S100000x16, .f32⟩
  | 16 => ⟨S100000x16, .f32⟩
  | 17 => ⟨S_, .f32⟩
  | 18 => ⟨S16, .f32⟩
  | 19 => ⟨S_, .f32⟩
  | 20 => ⟨S16, .f32⟩
  | 21 => ⟨S16, .f32⟩
  | 22 => ⟨S_, .i32⟩
  | 23 => ⟨S_, .f32⟩
  | 24 => ⟨S16, .f32⟩
  | 25 => ⟨S1x16, .f32⟩
  | 26 => ⟨S_, .f32⟩
  | 27 => ⟨S1x16, .f32⟩
  | 28 => ⟨S1x16, .f32⟩
  | 29 => ⟨S100000x16, .f32⟩
  | 30 => ⟨S100000x16, .f32⟩
  | 31 => ⟨S100000x16, .f32⟩
  | 32 => ⟨S_, .f32⟩
  | 33 => ⟨S_, .f32⟩
  | 34 => ⟨S_, .f32⟩
  | 35 => ⟨S_, .f32⟩
  | 36 => ⟨S16, .f32⟩
  | 37 => ⟨S16, .f32⟩
  | 38 => ⟨S16, .f32⟩
  | 39 => ⟨S_, .f32⟩
  | 40 => ⟨S_, .i1⟩
  | 41 => ⟨S_, .f32⟩
  | 42 => ⟨S_, .f32⟩
  | 43 => ⟨S16, .f32⟩
  | 44 => ⟨S16, .f32⟩
  | 45 => ⟨S1x16, .f32⟩
  | 46 => ⟨S100000x16, .f32⟩
  | 47 => ⟨S100000x16, .f32⟩
  | 48 => ⟨S_, .f32⟩
  | 49 => ⟨S16, .f32⟩
  | 50 => ⟨S16, .f32⟩
  | 51 => ⟨S16, .f32⟩
  | 52 => ⟨S1x16, .f32⟩
  | 53 => ⟨S100000x16, .f32⟩
  | 54 => ⟨S100000x16, .f32⟩
  | 55 => ⟨S1x16, .f32⟩
  | 56 => ⟨S100000x16, .f32⟩
  | 57 => ⟨S100000x16, .f32⟩
  | 58 => ⟨S1x16, .f32⟩
  | 59 => ⟨S100000x16, .f32⟩
  | 60 => ⟨S100000x16, .f32⟩
  | 61 => ⟨S_, .i32⟩
  | 62 => ⟨S5000000, .i32⟩
  | 63 => ⟨S5000000, .i1⟩
  | 64 => ⟨S_, .i32⟩
  | 65 => ⟨S5000000, .i32⟩
  | 66 => ⟨S5000000, .i32⟩
  | 67 => ⟨S5000000, .i32⟩
  | 68 => ⟨S5000000x1, .i32⟩
  | 69 => ⟨S5000000x16, .f32⟩
  | 70 => ⟨S100000x16, .f32⟩
  | 71 => ⟨S_, .f32⟩
  | 72 => ⟨S_, .f32⟩
  | 73 => ⟨S100000x16, .f32⟩
  | 74 => ⟨S100000x16, .f32⟩
  | 75 => ⟨S100000x16, .f32⟩
  | 76 => ⟨S100000x16, .f32⟩
  | 77 => ⟨S1x16, .f32⟩
  | 78 => ⟨S100000x16, .f32⟩
  | 79 => ⟨S100000x16, .f32⟩
  | 80 => ⟨S_, .f32⟩
  | 81 => ⟨S100000x16, .f32⟩
  | 82 => ⟨S100000x16, .f32⟩
  | 83 => ⟨S100000x16, .f32⟩
  | 84 => ⟨S1x16, .f32⟩
  | 85 => ⟨S100000x16, .f32⟩
  | 86 => ⟨S100000x16, .f32⟩
  | 87 => ⟨S100000x16, .f32⟩
  | 88 => ⟨S1x16, .f32⟩
  | 89 => ⟨S100000x16, .f32⟩
  | 90 => ⟨S100000x16, .f32⟩
  | 91 => ⟨S100000x16, .f32⟩
  | 92 => ⟨S_, .f32⟩
  | 93 => ⟨S16, .f32⟩
  | 94 => ⟨S_, .f32⟩
  | 95 => ⟨S16, .f32⟩
  | 96 => ⟨S16, .f32⟩
  | 97 => ⟨S_, .i32⟩
  | 98 => ⟨S_, .f32⟩
  | 99 => ⟨S16, .f32⟩
  | 100 => ⟨S1x16, .f32⟩
  | 101 => ⟨S_, .f32⟩
  | 102 => ⟨S1x16, .f32⟩
  | 103 => ⟨S1x16, .f32⟩
  | 104 => ⟨S100000x16, .f32⟩
  | 105 => ⟨S100000x16, .f32⟩
  | 106 => ⟨S100000x16, .f32⟩
  | 107 => ⟨S_, .f32⟩
  | 108 => ⟨S_, .f32⟩
  | 109 => ⟨S_, .f32⟩
  | 110 => ⟨S_, .f32⟩
  | 111 => ⟨S16, .f32⟩
  | 112 => ⟨S16, .f32⟩
  | 113 => ⟨S16, .f32⟩
  | 114 => ⟨S_, .f32⟩
  | 115 => ⟨S_, .i1⟩
  | 116 => ⟨S_, .f32⟩
  | 117 => ⟨S_, .f32⟩
  | 118 => ⟨S16, .f32⟩
  | 119 => ⟨S16, .f32⟩
  | 120 => ⟨S1x16, .f32⟩
  | 121 => ⟨S100000x16, .f32⟩
  | 122 => ⟨S100000x16, .f32⟩
  | 123 => ⟨S_, .f32⟩
  | 124 => ⟨S16, .f32⟩
  | 125 => ⟨S16, .f32⟩
  | 126 => ⟨S16, .f32⟩
  | 127 => ⟨S1x16, .f32⟩
  | _ => ⟨S100000x8, .f32⟩

abbrev hbmTy0_2 (i : Nat) : BufTy := match i % 128 with
  | 0 => ⟨S100000x16, .f32⟩
  | 1 => ⟨S100000x16, .f32⟩
  | 2 => ⟨S1x16, .f32⟩
  | 3 => ⟨S100000x16, .f32⟩
  | 4 => ⟨S100000x16, .f32⟩
  | 5 => ⟨S1x16, .f32⟩
  | 6 => ⟨S100000x16, .f32⟩
  | 7 => ⟨S100000x16, .f32⟩
  | _ => ⟨S100000x8, .f32⟩

abbrev hbmTy (i : Nat) : BufTy := match i / 128 with
  | 0 => hbmTy0_0 i
  | 1 => hbmTy0_1 i
  | 2 => hbmTy0_2 i
  | _ => ⟨S100000x8, .f32⟩

abbrev bufTy : (tb : Table) → Fin (tcTables nBuf tb) → BufTy
  | .hbm, ⟨i, _⟩ => hbmTy i
  | .local _ .vmem, ⟨0, _⟩ => ⟨S8000x8, .f32⟩
  | .local _ .vmem, ⟨1, _⟩ => ⟨S8000x8, .f32⟩
  | .local _ .vmem, ⟨2, _⟩ => ⟨S8000x1, .i32⟩
  | .local _ .vmem, ⟨3, _⟩ => ⟨S8000x1, .i32⟩
  | .local _ .vmem, ⟨4, _⟩ => ⟨S2000x8, .f32⟩
  | .local _ .vmem, ⟨5, _⟩ => ⟨S2000x8, .f32⟩
  | .local _ .vmem, ⟨6, _⟩ => ⟨S2000x8, .f32⟩
  | .local _ .vmem, ⟨7, _⟩ => ⟨S8000x16, .f32⟩
  | .local _ .vmem, ⟨8, _⟩ => ⟨S8000x16, .f32⟩
  | .local _ .vmem, ⟨9, _⟩ => ⟨S8000x1, .i32⟩
  | .local _ .vmem, ⟨10, _⟩ => ⟨S8000x1, .i32⟩
  | .local _ .vmem, ⟨11, _⟩ => ⟨S2000x16, .f32⟩
  | .local _ .vmem, ⟨12, _⟩ => ⟨S2000x16, .f32⟩
  | .local _ .vmem, ⟨13, _⟩ => ⟨S2000x16, .f32⟩
  | .local _ .vmem, ⟨14, _⟩ => ⟨S8000x16, .f32⟩
  | .local _ .vmem, ⟨15, _⟩ => ⟨S8000x16, .f32⟩
  | .local _ .vmem, ⟨16, _⟩ => ⟨S8000x1, .i32⟩
  | .local _ .vmem, ⟨17, _⟩ => ⟨S8000x1, .i32⟩
  | .local _ .vmem, ⟨18, _⟩ => ⟨S2000x16, .f32⟩
  | .local _ .vmem, ⟨19, _⟩ => ⟨S2000x16, .f32⟩
  | .local _ .vmem, ⟨20, _⟩ => ⟨S2000x16, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_c : Ref sig .tc := ⟨.hbm, 34, rfl⟩
abbrev main_v5 : Ref sig .tc := ⟨.hbm, 35, rfl⟩
abbrev main_v6 : Ref sig .tc := ⟨.hbm, 36, rfl⟩
abbrev main_c_0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_1 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_2 : Ref sig .tc := ⟨.hbm, 70, rfl⟩
abbrev main_v31 : Ref sig .tc := ⟨.hbm, 71, rfl⟩
abbrev main_cst_3 : Ref sig .tc := ⟨.hbm, 72, rfl⟩
abbrev main_v32 : Ref sig .tc := ⟨.hbm, 73, rfl⟩
abbrev main_v33 : Ref sig .tc := ⟨.hbm, 74, rfl⟩
abbrev main_c_4 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_cst_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_cst_1 : Ref sig .tc := ⟨.hbm, 86, rfl⟩
abbrev main_call1_v8 : Ref sig .tc := ⟨.hbm, 87, rfl⟩
abbrev main_call1_cst_2 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_cst_3 : Ref sig .tc := ⟨.hbm, 92, rfl⟩
abbrev main_call1_v12 : Ref sig .tc := ⟨.hbm, 93, rfl⟩
abbrev main_call1_cst_4 : Ref sig .tc := ⟨.hbm, 94, rfl⟩
abbrev main_call1_call0_v0 : Ref sig .tc := ⟨.hbm, 95, rfl⟩
abbrev main_call1_call0_v1 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_cst_5 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_c_6 : Ref sig .tc := ⟨.hbm, 114, rfl⟩
abbrev main_v50 : Ref sig .tc := ⟨.hbm, 115, rfl⟩
abbrev main_v51 : Ref sig .tc := ⟨.hbm, 116, rfl⟩
abbrev main_c_7 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_cst_8 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_call2_cst : Ref sig .tc := ⟨.hbm, 133, rfl⟩
abbrev main_call2_v0 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_cst_9 : Ref sig .tc := ⟨.hbm, 145, rfl⟩
abbrev main_v76 : Ref sig .tc := ⟨.hbm, 146, rfl⟩
abbrev main_cst_10 : Ref sig .tc := ⟨.hbm, 147, rfl⟩
abbrev main_v77 : Ref sig .tc := ⟨.hbm, 148, rfl⟩
abbrev main_v78 : Ref sig .tc := ⟨.hbm, 149, rfl⟩
abbrev main_c_11 : Ref sig .tc := ⟨.hbm, 150, rfl⟩
abbrev main_call3_cst : Ref sig .tc := ⟨.hbm, 151, rfl⟩
abbrev main_call3_v0 : Ref sig .tc := ⟨.hbm, 152, rfl⟩
abbrev main_call3_v1 : Ref sig .tc := ⟨.hbm, 153, rfl⟩
abbrev main_call3_cst_0 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_v6 : Ref sig .tc := ⟨.hbm, 159, rfl⟩
abbrev main_call3_v7 : Ref sig .tc := ⟨.hbm, 160, rfl⟩
abbrev main_call3_cst_1 : Ref sig .tc := ⟨.hbm, 161, rfl⟩
abbrev main_call3_v8 : Ref sig .tc := ⟨.hbm, 162, rfl⟩
abbrev main_call3_cst_2 : Ref sig .tc := ⟨.hbm, 163, rfl⟩
abbrev main_call3_v9 : Ref sig .tc := ⟨.hbm, 164, rfl⟩
abbrev main_call3_v10 : Ref sig .tc := ⟨.hbm, 165, rfl⟩
abbrev main_call3_v11 : Ref sig .tc := ⟨.hbm, 166, rfl⟩
abbrev main_call3_cst_3 : Ref sig .tc := ⟨.hbm, 167, rfl⟩
abbrev main_call3_v12 : Ref sig .tc := ⟨.hbm, 168, rfl⟩
abbrev main_call3_cst_4 : Ref sig .tc := ⟨.hbm, 169, rfl⟩
abbrev main_call3_call0_v0 : Ref sig .tc := ⟨.hbm, 170, rfl⟩
abbrev main_call3_call0_v1 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_cst_12 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_c_13 : Ref sig .tc := ⟨.hbm, 189, rfl⟩
abbrev main_v95 : Ref sig .tc := ⟨.hbm, 190, rfl⟩
abbrev main_v96 : Ref sig .tc := ⟨.hbm, 191, rfl⟩
abbrev main_c_14 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_cst_15 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_call4_cst : Ref sig .tc := ⟨.hbm, 208, rfl⟩
abbrev main_call4_v0 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩
abbrev main_cst_16 : Ref sig .tc := ⟨.hbm, 220, rfl⟩
abbrev main_v121 : Ref sig .tc := ⟨.hbm, 221, rfl⟩
abbrev main_cst_17 : Ref sig .tc := ⟨.hbm, 222, rfl⟩
abbrev main_v122 : Ref sig .tc := ⟨.hbm, 223, rfl⟩
abbrev main_v123 : Ref sig .tc := ⟨.hbm, 224, rfl⟩
abbrev main_c_18 : Ref sig .tc := ⟨.hbm, 225, rfl⟩
abbrev main_call5_cst : Ref sig .tc := ⟨.hbm, 226, rfl⟩
abbrev main_call5_v0 : Ref sig .tc := ⟨.hbm, 227, rfl⟩
abbrev main_call5_v1 : Ref sig .tc := ⟨.hbm, 228, rfl⟩
abbrev main_call5_cst_0 : Ref sig .tc := ⟨.hbm, 229, rfl⟩
abbrev main_call5_v2 : Ref sig .tc := ⟨.hbm, 230, rfl⟩
abbrev main_call5_v3 : Ref sig .tc := ⟨.hbm, 231, rfl⟩
abbrev main_call5_v4 : Ref sig .tc := ⟨.hbm, 232, rfl⟩
abbrev main_call5_v5 : Ref sig .tc := ⟨.hbm, 233, rfl⟩
abbrev main_call5_v6 : Ref sig .tc := ⟨.hbm, 234, rfl⟩
abbrev main_call5_v7 : Ref sig .tc := ⟨.hbm, 235, rfl⟩
abbrev main_call5_cst_1 : Ref sig .tc := ⟨.hbm, 236, rfl⟩
abbrev main_call5_v8 : Ref sig .tc := ⟨.hbm, 237, rfl⟩
abbrev main_call5_cst_2 : Ref sig .tc := ⟨.hbm, 238, rfl⟩
abbrev main_call5_v9 : Ref sig .tc := ⟨.hbm, 239, rfl⟩
abbrev main_call5_v10 : Ref sig .tc := ⟨.hbm, 240, rfl⟩
abbrev main_call5_v11 : Ref sig .tc := ⟨.hbm, 241, rfl⟩
abbrev main_call5_cst_3 : Ref sig .tc := ⟨.hbm, 242, rfl⟩
abbrev main_call5_v12 : Ref sig .tc := ⟨.hbm, 243, rfl⟩
abbrev main_call5_cst_4 : Ref sig .tc := ⟨.hbm, 244, rfl⟩
abbrev main_call5_call0_v0 : Ref sig .tc := ⟨.hbm, 245, rfl⟩
abbrev main_call5_call0_v1 : Ref sig .tc := ⟨.hbm, 246, rfl⟩
abbrev main_v124 : Ref sig .tc := ⟨.hbm, 247, rfl⟩
abbrev main_v125 : Ref sig .tc := ⟨.hbm, 248, rfl⟩
abbrev main_v126 : Ref sig .tc := ⟨.hbm, 249, rfl⟩
abbrev main_v127 : Ref sig .tc := ⟨.hbm, 250, rfl⟩
abbrev main_cst_19 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev main_v131 : Ref sig .tc := ⟨.hbm, 255, rfl⟩
abbrev main_v132 : Ref sig .tc := ⟨.hbm, 256, rfl⟩
abbrev main_v133 : Ref sig .tc := ⟨.hbm, 257, rfl⟩
abbrev main_v134 : Ref sig .tc := ⟨.hbm, 258, rfl⟩
abbrev main_v135 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![50, 625], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![50, 625], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S8000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![50, 625], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S8000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  shapeCasts_S5000000_S5000000x1 : S5000000.ShapeCasts S5000000x1
  bcast_S_S5000000 : S_.BroadcastsInDim S5000000 (![] : Fin 0 → Fin S5000000.rank)
  bcast_S5000000_S5000000x1_0 : S5000000.BroadcastsInDim S5000000x1 (![0] : Fin 1 → Fin S5000000x1.rank)
  inb_S2000x8_S2000x8_0_0 : ∀ a, (![0, 0] : Fin 2 → Nat) a + S2000x8.size a ≤ S2000x8.size a
  h_S2000x8 : 0 < S2000x8.numel
  shapeCasts_S2000x8_S2000x8 : S2000x8.ShapeCasts S2000x8
  iota_S1x2000_d1_w32 : S1x2000.Iotas .tc 32 [1]
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x2000 : S8000x1.Broadcasts S8000x2000
  broadcasts_S1x2000_S8000x2000 : S1x2000.Broadcasts S8000x2000
  natLt_1_32 : 1 < 32
  bitsLt_bf16_f32 : FTy.bits .bf16 < FTy.bits .f32
  inb_S8000x8_S8000x8_0_0 : ∀ a, (![0, 0] : Fin 2 → Nat) a + S8000x8.size a ≤ S8000x8.size a
  h_S8000x8 : 0 < S8000x8.numel
  shapeCasts_S8000x8_S8000x8 : S8000x8.ShapeCasts S8000x8
  bcast_S_S100000x8 : S_.BroadcastsInDim S100000x8 (![] : Fin 0 → Fin S100000x8.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  reducesTo_S100000x16_S16_d0 : S100000x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  gather_S100000x8_S5000000x1_S5000000x8_1_0_n_n_0_1_18_wf : GatherDims.WF S100000x8 S5000000x1 S5000000x8 [1] [0] [] [0] [] 1 ![1, 8]
  dot_S8000x2000_S8000x8_S2000x8_0_0_1_1_n_n_wf : DotDims.WF S8000x2000 S8000x8 S2000x8 [0] [0] [1] [1] [] []
  dot_S100000x8_S8x16_S100000x16_1_0_0_1_n_n_wf : DotDims.WF S100000x8 S8x16 S100000x16 [1] [0] [0] [1] [] []
  dot_S100000x16_S16x16_S100000x16_1_0_0_1_n_n_wf : DotDims.WF S100000x16 S16x16 S100000x16 [1] [0] [0] [1] [] []
  gather_S100000x16_S5000000x1_S5000000x16_1_0_n_n_0_1_116_wf : GatherDims.WF S100000x16 S5000000x1 S5000000x16 [1] [0] [] [0] [] 1 ![1, 16]
  dot_S8000x2000_S8000x16_S2000x16_0_0_1_1_n_n_wf : DotDims.WF S8000x2000 S8000x16 S2000x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x8.size a ≤ S5000000x8.size a
  hwx0_0 : ∀ i : grid0.Coords, EltTy.bits .f32 = 32 ∨ (Rect.block (s := S5000000x8) S8000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S5000000x1.size a
  hwx0_1 : ∀ i : grid0.Coords, EltTy.bits .i32 = 32 ∨ (Rect.block (s := S5000000x1) S8000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x8.size a ≤ S100000x8.size a
  hwx0_2 : ∀ i : grid0.Coords, EltTy.bits .f32 = 32 ∨ (Rect.block (s := S100000x8) S2000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S5000000x16.size a
  hwx1_0 : ∀ i : grid1.Coords, EltTy.bits .f32 = 32 ∨ (Rect.block (s := S5000000x16) S8000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S5000000x1.size a
  hwx1_1 : ∀ i : grid1.Coords, EltTy.bits .i32 = 32 ∨ (Rect.block (s := S5000000x1) S8000x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x16.size a ≤ S5000000x16.size a
  hwx2_0 : ∀ i : grid2.Coords, EltTy.bits .f32 = 32 ∨ (Rect.block (s := S5000000x16) S8000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S5000000x1.size a
  hwx2_1 : ∀ i : grid2.Coords, EltTy.bits .i32 = 32 ∨ (Rect.block (s := S5000000x1) S8000x1.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S100000x16.size a
  hwx2_2 : ∀ i : grid2.Coords, EltTy.bits .f32 = 32 ∨ (Rect.block (s := S100000x16) S2000x16.size (cc2_transform_2 i) (hinb2_2 i)).WholeWords (EltTy.packing .f32)

variable [Facts₀]

def gather_S100000x8_S5000000x1_S5000000x8_1_0_n_n_0_1_18 : GatherDims S100000x8 S5000000x1 S5000000x8 where
  offsetDims := [1]
  collapsedSliceDims := [0]
  operandBatchingDims := []
  startIndicesBatchingDims := []
  startIndexMap := [0]
  indexVectorDim := 1
  sliceSizes := ![1, 8]
  wf := gather_S100000x8_S5000000x1_S5000000x8_1_0_n_n_0_1_18_wf
def dot_S8000x2000_S8000x8_S2000x8_0_0_1_1_n_n : DotDims S8000x2000 S8000x8 S2000x8 where
  lhsContracting := [0]
  rhsContracting := [0]
  lhsNonContracting := [1]
  rhsNonContracting := [1]
  lhsBatch := []
  rhsBatch := []
  wf := dot_S8000x2000_S8000x8_S2000x8_0_0_1_1_n_n_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S5000000x1_S5000000x16_1_0_n_n_0_1_116 : GatherDims S100000x16 S5000000x1 S5000000x16 where
  offsetDims := [1]
  collapsedSliceDims := [0]
  operandBatchingDims := []
  startIndicesBatchingDims := []
  startIndexMap := [0]
  indexVectorDim := 1
  sliceSizes := ![1, 16]
  wf := gather_S100000x16_S5000000x1_S5000000x16_1_0_n_n_0_1_116_wf
def dot_S8000x2000_S8000x16_S2000x16_0_0_1_1_n_n : DotDims S8000x2000 S8000x16 S2000x16 where
  lhsContracting := [0]
  rhsContracting := [0]
  lhsNonContracting := [1]
  rhsNonContracting := [1]
  lhsBatch := []
  rhsBatch := []
  wf := dot_S8000x2000_S8000x16_S2000x16_0_0_1_1_n_n_wf

abbrev win0_0 : Pipeline.Window sig grid0 :=
  Pipeline.Window.ofSpec (Memref.whole main_v11) S8000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v57) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v101) S8000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v102) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x8 : Shape := ⟨2, ![100000, 8]⟩
abbrev S2x5000000 : Shape := ⟨2, ![2, 5000000]⟩
abbrev S_ : Shape := ⟨0, ![]⟩
abbrev S8x16 : Shape := ⟨2, ![8, 16]⟩
abbrev S16 : Shape := ⟨1, ![16]⟩
abbrev S16x16 : Shape := ⟨2, ![16, 16]⟩
abbrev S1x5000000 : Shape := ⟨2, ![1, 5000000]⟩
abbrev S5000000 : Shape := ⟨1, ![5000000]⟩
abbrev S5000000x1 : Shape := ⟨2, ![5000000, 1]⟩
abbrev S5000000x8 : Shape := ⟨2, ![5000000, 8]⟩
abbrev S100000x16 : Shape := ⟨2, ![100000, 16]⟩
abbrev S1x16 : Shape := ⟨2, ![1, 16]⟩
abbrev S5000000x16 : Shape := ⟨2, ![5000000, 16]⟩

abbrev nBuf : Space → Nat
  | .hbm => 272
  | .vmem => 0
  | .smem => 0
  | _ => 0

abbrev hbmTy0_0 (i : Nat) : BufTy := match i % 128 with
  | 0 => ⟨S100000x8, .f32⟩
  | 1 => ⟨S2x5000000, .i32⟩
  | 2 => ⟨S_, .f32⟩
  | 3 => ⟨S8x16, .f32⟩
  | 4 => ⟨S16, .f32⟩
  | 5 => ⟨S16x16, .f32⟩
  | 6 => ⟨S16, .f32⟩
  | 7 => ⟨S8x16, .f32⟩
  | 8 => ⟨S16, .f32⟩
  | 9 => ⟨S16, .f32⟩
  | 10 => ⟨S16, .f32⟩
  | 11 => ⟨S_, .f32⟩
  | 12 => ⟨S16x16, .f32⟩
  | 13 => ⟨S16, .f32⟩
  | 14 => ⟨S16x16, .f32⟩
  | 15 => ⟨S16, .f32⟩
  | 16 => ⟨S16x16, .f32⟩
  | 17 => ⟨S16, .f32⟩
  | 18 => ⟨S16, .f32⟩
  | 19 => ⟨S16, .f32⟩
  | 20 => ⟨S_, .f32⟩
  | 21 => ⟨S16x16, .f32⟩
  | 22 => ⟨S16, .f32⟩
  | 23 => ⟨S16x16, .f32⟩
  | 24 => ⟨S16, .f32⟩
  | 25 => ⟨S16x16, .f32⟩
  | 26 => ⟨S16, .f32⟩
  | 27 => ⟨S16, .f32⟩
  | 28 => ⟨S16, .f32⟩
  | 29 => ⟨S1x5000000, .i32⟩
  | 30 => ⟨S5000000, .i32⟩
  | 31 => ⟨S1x5000000, .i32⟩
  | 32 => ⟨S5000000, .i32⟩
  | 33 => ⟨S_, .i32⟩
  | 34 => ⟨S5000000, .i32⟩
  | 35 => ⟨S5000000, .i1⟩
  | 36 => ⟨S_, .i32⟩
  | 37 => ⟨S5000000, .i32⟩
  | 38 => ⟨S5000000, .i32⟩
  | 39 => ⟨S5000000, .i32⟩
  | 40 => ⟨S5000000x1, .i32⟩
  | 41 => ⟨S5000000x8, .f32⟩
  | 42 => ⟨S_, .f32⟩
  | 43 => ⟨S100000x8, .f32⟩
  | 44 => ⟨S5000000x1, .i32⟩
  | 45 => ⟨S100000x8, .f32⟩
  | 46 => ⟨S_, .f32⟩
  | 47 => ⟨S_, .f32⟩
  | 48 => ⟨S100000x8, .f32⟩
  | 49 => ⟨S100000x8, .f32⟩
  | 50 => ⟨S100000x8, .f32⟩
  | 51 => ⟨S100000x16, .f32⟩
  | 52 => ⟨S1x16, .f32⟩
  | 53 => ⟨S100000x16, .f32⟩
  | 54 => ⟨S100000x16, .f32⟩
  | 55 => ⟨S_, .f32⟩
  | 56 => ⟨S_, .f32⟩
  | 57 => ⟨S100000x16, .f32⟩
  | 58 => ⟨S100000x16, .i1⟩
  | 59 => ⟨S_, .f32⟩
  | 60 => ⟨S100000x16, .f32⟩
  | 61 => ⟨S100000x16, .f32⟩
  | 62 => ⟨S100000x16, .f32⟩
  | 63 => ⟨S100000x16, .f32⟩
  | 64 => ⟨S1x16, .f32⟩
  | 65 => ⟨S100000x16, .f32⟩
  | 66 => ⟨S100000x16, .f32⟩
  | 67 => ⟨S100000x16, .f32⟩
  | 68 => ⟨S1x16, .f32⟩
  | 69 => ⟨S100000x16, .f32⟩
  | 70 => ⟨S100000x16, .f32⟩
  | 71 => ⟨S100000x16, .f32⟩
  | 72 => ⟨S_, .f32⟩
  | 73 => ⟨S16, .f32⟩
  | 74 => ⟨S_, .f32⟩
  | 75 => ⟨S16, .f32⟩
  | 76 => ⟨S16, .f32⟩
  | 77 => ⟨S_, .i32⟩
  | 78 => ⟨S_, .f32⟩
  | 79 => ⟨S16, .f32⟩
  | 80 => ⟨S1x16, .f32⟩
  | 81 => ⟨S_, .f32⟩
  | 82 => ⟨S1x16, .f32⟩
  | 83 => ⟨S1x16, .f32⟩
  | 84 => ⟨S100000x16, .f32⟩
  | 85 => ⟨S100000x16, .f32⟩
  | 86 => ⟨S100000x16, .f32⟩
  | 87 => ⟨S_, .f32⟩
  | 88 => ⟨S_, .f32⟩
  | 89 => ⟨S_, .f32⟩
  | 90 => ⟨S_, .f32⟩
  | 91 => ⟨S16, .f32⟩
  | 92 => ⟨S16, .f32⟩
  | 93 => ⟨S16, .f32⟩
  | 94 => ⟨S_, .f32⟩
  | 95 => ⟨S_, .i1⟩
  | 96 => ⟨S_, .f32⟩
  | 97 => ⟨S_, .f32⟩
  | 98 => ⟨S16, .f32⟩
  | 99 => ⟨S16, .f32⟩
  | 100 => ⟨S1x16, .f32⟩
  | 101 => ⟨S100000x16, .f32⟩
  | 102 => ⟨S100000x16, .f32⟩
  | 103 => ⟨S_, .f32⟩
  | 104 => ⟨S16, .f32⟩
  | 105 => ⟨S16, .f32⟩
  | 106 => ⟨S16, .f32⟩
  | 107 => ⟨S1x16, .f32⟩
  | 108 => ⟨S100000x16, .f32⟩
  | 109 => ⟨S100000x16, .f32⟩
  | 110 => ⟨S1x16, .f32⟩
  | 111 => ⟨S100000x16, .f32⟩
  | 112 => ⟨S100000x16, .f32⟩
  | 113 => ⟨S1x16, .f32⟩
  | 114 => ⟨S100000x16, .f32⟩
  | 115 => ⟨S100000x16, .f32⟩
  | 116 => ⟨S_, .i32⟩
  | 117 => ⟨S5000000, .i32⟩
  | 118 => ⟨S5000000, .i1⟩
  | 119 => ⟨S_, .i32⟩
  | 120 => ⟨S5000000, .i32⟩
  | 121 => ⟨S5000000, .i32⟩
  | 122 => ⟨S5000000, .i32⟩
  | 123 => ⟨S5000000x1, .i32⟩
  | 124 => ⟨S5000000x16, .f32⟩
  | 125 => ⟨S_, .f32⟩
  | 126 => ⟨S100000x16, .f32⟩
  | 127 => ⟨S5000000x1, .i32⟩
  | _ => ⟨S100000x8, .f32⟩

abbrev hbmTy0_1 (i : Nat) : BufTy := match i % 128 with
  | 0 => ⟨S100000x16, .f32⟩
  | 1 => ⟨S_, .f32⟩
  | 2 => ⟨S_, .f32⟩
  | 3 => ⟨S100000x16, .f32⟩
  | 4 => ⟨S100000x16, .f32⟩
  | 5 => ⟨S100000x16, .f32⟩
  | 6 => ⟨S100000x16, .f32⟩
  | 7 => ⟨S1x16, .f32⟩
  | 8 => ⟨S100000x16, .f32⟩
  | 9 => ⟨S100000x16, .f32⟩
  | 10 => ⟨S_, .f32⟩
  | 11 => ⟨S100000x16, .f32⟩
  | 12 => ⟨S100000x16, .f32⟩
  | 13 => ⟨S100000x16, .f32⟩
  | 14 => ⟨S1x16, .f32⟩
  | 15 => ⟨S100000x16, .f32⟩
  | 16 => ⟨S100000x16, .f32⟩
  | 17 => ⟨S100000x16, .f32⟩
  | 18 => ⟨S1x16, .f32⟩
  | 19 => ⟨S100000x16, .f32⟩
  | 20 => ⟨S100000x16, .f32⟩
  | 21 => ⟨S100000x16, .f32⟩
  | 22 => ⟨S_, .f32⟩
  | 23 => ⟨S16, .f32⟩
  | 24 => ⟨S_, .f32⟩
  | 25 => ⟨S16, .f32⟩
  | 26 => ⟨S16, .f32⟩
  | 27 => ⟨S_, .i32⟩
  | 28 => ⟨S_, .f32⟩
  | 29 => ⟨S16, .f32⟩
  | 30 => ⟨S1x16, .f32⟩
  | 31 => ⟨S_, .f32⟩
  | 32 => ⟨S1x16, .f32⟩
  | 33 => ⟨S1x16, .f32⟩
  | 34 => ⟨S100000x16, .f32⟩
  | 35 => ⟨S100000x16, .f32⟩
  | 36 => ⟨S100000x16, .f32⟩
  | 37 => ⟨S_, .f32⟩
  | 38 => ⟨S_, .f32⟩
  | 39 => ⟨S_, .f32⟩
  | 40 => ⟨S_, .f32⟩
  | 41 => ⟨S16, .f32⟩
  | 42 => ⟨S16, .f32⟩
  | 43 => ⟨S16, .f32⟩
  | 44 => ⟨S_, .f32⟩
  | 45 => ⟨S_, .i1⟩
  | 46 => ⟨S_, .f32⟩
  | 47 => ⟨S_, .f32⟩
  | 48 => ⟨S16, .f32⟩
  | 49 => ⟨S16, .f32⟩
  | 50 => ⟨S1x16, .f32⟩
  | 51 => ⟨S100000x16, .f32⟩
  | 52 => ⟨S100000x16, .f32⟩
  | 53 => ⟨S_, .f32⟩
  | 54 => ⟨S16, .f32⟩
  | 55 => ⟨S16, .f32⟩
  | 56 => ⟨S16, .f32⟩
  | 57 => ⟨S1x16, .f32⟩
  | 58 => ⟨S100000x16, .f32⟩
  | 59 => ⟨S100000x16, .f32⟩
  | 60 => ⟨S1x16, .f32⟩
  | 61 => ⟨S100000x16, .f32⟩
  | 62 => ⟨S100000x16, .f32⟩
  | 63 => ⟨S1x16, .f32⟩
  | 64 => ⟨S100000x16, .f32⟩
  | 65 => ⟨S100000x16, .f32⟩
  | 66 => ⟨S_, .i32⟩
  | 67 => ⟨S5000000, .i32⟩
  | 68 => ⟨S5000000, .i1⟩
  | 69 => ⟨S_, .i32⟩
  | 70 => ⟨S5000000, .i32⟩
  | 71 => ⟨S5000000, .i32⟩
  | 72 => ⟨S5000000, .i32⟩
  | 73 => ⟨S5000000x1, .i32⟩
  | 74 => ⟨S5000000x16, .f32⟩
  | 75 => ⟨S_, .f32⟩
  | 76 => ⟨S100000x16, .f32⟩
  | 77 => ⟨S5000000x1, .i32⟩
  | 78 => ⟨S100000x16, .f32⟩
  | 79 => ⟨S_, .f32⟩
  | 80 => ⟨S_, .f32⟩
  | 81 => ⟨S100000x16, .f32⟩
  | 82 => ⟨S100000x16, .f32⟩
  | 83 => ⟨S100000x16, .f32⟩
  | 84 => ⟨S100000x16, .f32⟩
  | 85 => ⟨S1x16, .f32⟩
  | 86 => ⟨S100000x16, .f32⟩
  | 87 => ⟨S100000x16, .f32⟩
  | 88 => ⟨S_, .f32⟩
  | 89 => ⟨S100000x16, .f32⟩
  | 90 => ⟨S100000x16, .f32⟩
  | 91 => ⟨S100000x16, .f32⟩
  | 92 => ⟨S1x16, .f32⟩
  | 93 => ⟨S100000x16, .f32⟩
  | 94 => ⟨S100000x16, .f32⟩
  | 95 => ⟨S100000x16, .f32⟩
  | 96 => ⟨S1x16, .f32⟩
  | 97 => ⟨S100000x16, .f32⟩
  | 98 => ⟨S100000x16, .f32⟩
  | 99 => ⟨S100000x16, .f32⟩
  | 100 => ⟨S_, .f32⟩
  | 101 => ⟨S16, .f32⟩
  | 102 => ⟨S_, .f32⟩
  | 103 => ⟨S16, .f32⟩
  | 104 => ⟨S16, .f32⟩
  | 105 => ⟨S_, .i32⟩
  | 106 => ⟨S_, .f32⟩
  | 107 => ⟨S16, .f32⟩
  | 108 => ⟨S1x16, .f32⟩
  | 109 => ⟨S_, .f32⟩
  | 110 => ⟨S1x16, .f32⟩
  | 111 => ⟨S1x16, .f32⟩
  | 112 => ⟨S100000x16, .f32⟩
  | 113 => ⟨S100000x16, .f32⟩
  | 114 => ⟨S100000x16, .f32⟩
  | 115 => ⟨S_, .f32⟩
  | 116 => ⟨S_, .f32⟩
  | 117 => ⟨S_, .f32⟩
  | 118 => ⟨S_, .f32⟩
  | 119 => ⟨S16, .f32⟩
  | 120 => ⟨S16, .f32⟩
  | 121 => ⟨S16, .f32⟩
  | 122 => ⟨S_, .f32⟩
  | 123 => ⟨S_, .i1⟩
  | 124 => ⟨S_, .f32⟩
  | 125 => ⟨S_, .f32⟩
  | 126 => ⟨S16, .f32⟩
  | 127 => ⟨S16, .f32⟩
  | _ => ⟨S100000x8, .f32⟩

abbrev hbmTy0_2 (i : Nat) : BufTy := match i % 128 with
  | 0 => ⟨S1x16, .f32⟩
  | 1 => ⟨S100000x16, .f32⟩
  | 2 => ⟨S100000x16, .f32⟩
  | 3 => ⟨S_, .f32⟩
  | 4 => ⟨S16, .f32⟩
  | 5 => ⟨S16, .f32⟩
  | 6 => ⟨S16, .f32⟩
  | 7 => ⟨S1x16, .f32⟩
  | 8 => ⟨S100000x16, .f32⟩
  | 9 => ⟨S100000x16, .f32⟩
  | 10 => ⟨S1x16, .f32⟩
  | 11 => ⟨S100000x16, .f32⟩
  | 12 => ⟨S100000x16, .f32⟩
  | 13 => ⟨S1x16, .f32⟩
  | 14 => ⟨S100000x16, .f32⟩
  | 15 => ⟨S100000x16, .f32⟩
  | _ => ⟨S100000x8, .f32⟩

abbrev hbmTy (i : Nat) : BufTy := match i / 128 with
  | 0 => hbmTy0_0 i
  | 1 => hbmTy0_1 i
  | 2 => hbmTy0_2 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_2 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_3 : Ref sig .tc := ⟨.hbm, 72, rfl⟩
abbrev main_v32 : Ref sig .tc := ⟨.hbm, 73, rfl⟩
abbrev main_cst_4 : Ref sig .tc := ⟨.hbm, 74, rfl⟩
abbrev main_v33 : Ref sig .tc := ⟨.hbm, 75, rfl⟩
abbrev main_v34 : Ref sig .tc := ⟨.hbm, 76, rfl⟩
abbrev main_c_5 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_cst_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_cst_1 : Ref sig .tc := ⟨.hbm, 88, rfl⟩
abbrev main_call1_v8 : Ref sig .tc := ⟨.hbm, 89, rfl⟩
abbrev main_call1_cst_2 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_cst_3 : Ref sig .tc := ⟨.hbm, 94, rfl⟩
abbrev main_call1_v12 : Ref sig .tc := ⟨.hbm, 95, rfl⟩
abbrev main_call1_cst_4 : Ref sig .tc := ⟨.hbm, 96, rfl⟩
abbrev main_call1_call0_v0 : Ref sig .tc := ⟨.hbm, 97, rfl⟩
abbrev main_call1_call0_v1 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_cst_6 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_c_7 : Ref sig .tc := ⟨.hbm, 116, rfl⟩
abbrev main_v51 : Ref sig .tc := ⟨.hbm, 117, rfl⟩
abbrev main_v52 : Ref sig .tc := ⟨.hbm, 118, rfl⟩
abbrev main_c_8 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_cst_9 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_cst_10 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_call2_cst : Ref sig .tc := ⟨.hbm, 138, rfl⟩
abbrev main_call2_v0 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_cst_11 : Ref sig .tc := ⟨.hbm, 150, rfl⟩
abbrev main_v79 : Ref sig .tc := ⟨.hbm, 151, rfl⟩
abbrev main_cst_12 : Ref sig .tc := ⟨.hbm, 152, rfl⟩
abbrev main_v80 : Ref sig .tc := ⟨.hbm, 153, rfl⟩
abbrev main_v81 : Ref sig .tc := ⟨.hbm, 154, rfl⟩
abbrev main_c_13 : Ref sig .tc := ⟨.hbm, 155, rfl⟩
abbrev main_call3_cst : Ref sig .tc := ⟨.hbm, 156, rfl⟩
abbrev main_call3_v0 : Ref sig .tc := ⟨.hbm, 157, rfl⟩
abbrev main_call3_v1 : Ref sig .tc := ⟨.hbm, 158, rfl⟩
abbrev main_call3_cst_0 : Ref sig .tc := ⟨.hbm, 159, rfl⟩
abbrev main_call3_v2 : Ref sig .tc := ⟨.hbm, 160, rfl⟩
abbrev main_call3_v3 : Ref sig .tc := ⟨.hbm, 161, rfl⟩
abbrev main_call3_v4 : Ref sig .tc := ⟨.hbm, 162, rfl⟩
abbrev main_call3_v5 : Ref sig .tc := ⟨.hbm, 163, rfl⟩
abbrev main_call3_v6 : Ref sig .tc := ⟨.hbm, 164, rfl⟩
abbrev main_call3_v7 : Ref sig .tc := ⟨.hbm, 165, rfl⟩
abbrev main_call3_cst_1 : Ref sig .tc := ⟨.hbm, 166, rfl⟩
abbrev main_call3_v8 : Ref sig .tc := ⟨.hbm, 167, rfl⟩
abbrev main_call3_cst_2 : Ref sig .tc := ⟨.hbm, 168, rfl⟩
abbrev main_call3_v9 : Ref sig .tc := ⟨.hbm, 169, rfl⟩
abbrev main_call3_v10 : Ref sig .tc := ⟨.hbm, 170, rfl⟩
abbrev main_call3_v11 : Ref sig .tc := ⟨.hbm, 171, rfl⟩
abbrev main_call3_cst_3 : Ref sig .tc := ⟨.hbm, 172, rfl⟩
abbrev main_call3_v12 : Ref sig .tc := ⟨.hbm, 173, rfl⟩
abbrev main_call3_cst_4 : Ref sig .tc := ⟨.hbm, 174, rfl⟩
abbrev main_call3_call0_v0 : Ref sig .tc := ⟨.hbm, 175, rfl⟩
abbrev main_call3_call0_v1 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_cst_14 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_c_15 : Ref sig .tc := ⟨.hbm, 194, rfl⟩
abbrev main_v98 : Ref sig .tc := ⟨.hbm, 195, rfl⟩
abbrev main_v99 : Ref sig .tc := ⟨.hbm, 196, rfl⟩
abbrev main_c_16 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_cst_17 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_cst_18 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_call4_cst : Ref sig .tc := ⟨.hbm, 216, rfl⟩
abbrev main_call4_v0 : Ref sig .tc := ⟨.hbm, 217, rfl⟩
abbrev main_v116 : Ref sig .tc := ⟨.hbm, 218, rfl⟩
abbrev main_v117 : Ref sig .tc := ⟨.hbm, 219, rfl⟩
abbrev main_v118 : Ref sig .tc := ⟨.hbm, 220, rfl⟩
abbrev main_v119 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev main_cst_19 : Ref sig .tc := ⟨.hbm, 228, rfl⟩
abbrev main_v126 : Ref sig .tc := ⟨.hbm, 229, rfl⟩
abbrev main_cst_20 : Ref sig .tc := ⟨.hbm, 230, rfl⟩
abbrev main_v127 : Ref sig .tc := ⟨.hbm, 231, rfl⟩
abbrev main_v128 : Ref sig .tc := ⟨.hbm, 232, rfl⟩
abbrev main_c_21 : Ref sig .tc := ⟨.hbm, 233, rfl⟩
abbrev main_call5_cst : Ref sig .tc := ⟨.hbm, 234, rfl⟩
abbrev main_call5_v0 : Ref sig .tc := ⟨.hbm, 235, rfl⟩
abbrev main_call5_v1 : Ref sig .tc := ⟨.hbm, 236, rfl⟩
abbrev main_call5_cst_0 : Ref sig .tc := ⟨.hbm, 237, rfl⟩
abbrev main_call5_v2 : Ref sig .tc := ⟨.hbm, 238, rfl⟩
abbrev main_call5_v3 : Ref sig .tc := ⟨.hbm, 239, rfl⟩
abbrev main_call5_v4 : Ref sig .tc := ⟨.hbm, 240, rfl⟩
abbrev main_call5_v5 : Ref sig .tc := ⟨.hbm, 241, rfl⟩
abbrev main_call5_v6 : Ref sig .tc := ⟨.hbm, 242, rfl⟩
abbrev main_call5_v7 : Ref sig .tc := ⟨.hbm, 243, rfl⟩
abbrev main_call5_cst_1 : Ref sig .tc := ⟨.hbm, 244, rfl⟩
abbrev main_call5_v8 : Ref sig .tc := ⟨.hbm, 245, rfl⟩
abbrev main_call5_cst_2 : Ref sig .tc := ⟨.hbm, 246, rfl⟩
abbrev main_call5_v9 : Ref sig .tc := ⟨.hbm, 247, rfl⟩
abbrev main_call5_v10 : Ref sig .tc := ⟨.hbm, 248, rfl⟩
abbrev main_call5_v11 : Ref sig .tc := ⟨.hbm, 249, rfl⟩
abbrev main_call5_cst_3 : Ref sig .tc := ⟨.hbm, 250, rfl⟩
abbrev main_call5_v12 : Ref sig .tc := ⟨.hbm, 251, rfl⟩
abbrev main_call5_cst_4 : Ref sig .tc := ⟨.hbm, 252, rfl⟩
abbrev main_call5_call0_v0 : Ref sig .tc := ⟨.hbm, 253, rfl⟩
abbrev main_call5_call0_v1 : Ref sig .tc := ⟨.hbm, 254, rfl⟩
abbrev main_v129 : Ref sig .tc := ⟨.hbm, 255, rfl⟩
abbrev main_v130 : Ref sig .tc := ⟨.hbm, 256, rfl⟩
abbrev main_v131 : Ref sig .tc := ⟨.hbm, 257, rfl⟩
abbrev main_v132 : Ref sig .tc := ⟨.hbm, 258, rfl⟩
abbrev main_cst_22 : Ref sig .tc := ⟨.hbm, 259, rfl⟩
abbrev main_v133 : Ref sig .tc := ⟨.hbm, 260, rfl⟩
abbrev main_v134 : Ref sig .tc := ⟨.hbm, 261, rfl⟩
abbrev main_v135 : Ref sig .tc := ⟨.hbm, 262, rfl⟩
abbrev main_v136 : Ref sig .tc := ⟨.hbm, 263, rfl⟩
abbrev main_v137 : Ref sig .tc := ⟨.hbm, 264, rfl⟩
abbrev main_v138 : Ref sig .tc := ⟨.hbm, 265, rfl⟩
abbrev main_v139 : Ref sig .tc := ⟨.hbm, 266, rfl⟩
abbrev main_v140 : Ref sig .tc := ⟨.hbm, 267, rfl⟩
abbrev main_v141 : Ref sig .tc := ⟨.hbm, 268, rfl⟩
abbrev main_v142 : Ref sig .tc := ⟨.hbm, 269, rfl⟩
abbrev main_v143 : Ref sig .tc := ⟨.hbm, 270, rfl⟩
abbrev main_v144 : Ref sig .tc := ⟨.hbm, 271, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  bcast_S_S5000000 : S_.BroadcastsInDim S5000000 (![] : Fin 0 → Fin S5000000.rank)
  bcast_S5000000_S5000000x1_0 : S5000000.BroadcastsInDim S5000000x1 (![0] : Fin 1 → Fin S5000000x1.rank)
  bcast_S_S100000x8 : S_.BroadcastsInDim S100000x8 (![] : Fin 0 → Fin S100000x8.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  reducesTo_S100000x16_S16_d0 : S100000x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  gather_S100000x8_S5000000x1_S5000000x8_1_0_n_n_0_1_18_wf : GatherDims.WF S100000x8 S5000000x1 S5000000x8 [1] [0] [] [0] [] 1 ![1, 8]
  scatter_S100000x8_S5000000x1_S5000000x8_1_0_0_1_wf : ScatterDims.WF S100000x8 S5000000x1 S5000000x8 [1] [0] [0] 1
  dot_S100000x8_S8x16_S100000x16_1_0_0_1_n_n_wf : DotDims.WF S100000x8 S8x16 S100000x16 [1] [0] [0] [1] [] []
  dot_S100000x16_S16x16_S100000x16_1_0_0_1_n_n_wf : DotDims.WF S100000x16 S16x16 S100000x16 [1] [0] [0] [1] [] []
  gather_S100000x16_S5000000x1_S5000000x16_1_0_n_n_0_1_116_wf : GatherDims.WF S100000x16 S5000000x1 S5000000x16 [1] [0] [] [0] [] 1 ![1, 16]
  scatter_S100000x16_S5000000x1_S5000000x16_1_0_0_1_wf : ScatterDims.WF S100000x16 S5000000x1 S5000000x16 [1] [0] [0] 1

variable [Facts₀]

def gather_S100000x8_S5000000x1_S5000000x8_1_0_n_n_0_1_18 : GatherDims S100000x8 S5000000x1 S5000000x8 where
  offsetDims := [1]
  collapsedSliceDims := [0]
  operandBatchingDims := []
  startIndicesBatchingDims := []
  startIndexMap := [0]
  indexVectorDim := 1
  sliceSizes := ![1, 8]
  wf := gather_S100000x8_S5000000x1_S5000000x8_1_0_n_n_0_1_18_wf
def scatter_S100000x8_S5000000x1_S5000000x8_1_0_0_1 : ScatterDims S100000x8 S5000000x1 S5000000x8 where
  updateWindowDims := [1]
  insertedWindowDims := [0]
  scatterDimsToOperandDims := [0]
  indexVectorDim := 1
  wf := scatter_S100000x8_S5000000x1_S5000000x8_1_0_0_1_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S5000000x1_S5000000x16_1_0_n_n_0_1_116 : GatherDims S100000x16 S5000000x1 S5000000x16 where
  offsetDims := [1]
  collapsedSliceDims := [0]
  operandBatchingDims := []
  startIndicesBatchingDims := []
  startIndexMap := [0]
  indexVectorDim := 1
  sliceSizes := ![1, 16]
  wf := gather_S100000x16_S5000000x1_S5000000x16_1_0_n_n_0_1_116_wf
def scatter_S100000x16_S5000000x1_S5000000x16_1_0_0_1 : ScatterDims S100000x16 S5000000x1 S5000000x16 where
  updateWindowDims := [1]
  insertedWindowDims := [0]
  scatterDimsToOperandDims := [0]
  indexVectorDim := 1
  wf := scatter_S100000x16_S5000000x1_S5000000x16_1_0_0_1_wf

class Facts : Prop extends Facts₀ where

variable [Facts]
-- ==== Proof.KBody0.lean ====
import proofs.«430351_j36395552866780_1_alg».proof.Proof.Gen.Kernel.Launch
import proofs.«430351_j36395552866780_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

noncomputable section

namespace Cert.Kernel.SegSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

theorem cond_of_zero (n : ℕ) (h : n = 0) :
    Scalar.cmpi .ne (Scalar.extui (Scalar.cmpi .eq (BitVec.ofNat 32 n) 0#32)) 0#32 = 1#1 := by
  subst h; decide

theorem not_cond_of_ne (n : ℕ) (hn : n < 625) (h : n ≠ 0) :
    ¬ Scalar.cmpi .ne (Scalar.extui (Scalar.cmpi .eq (BitVec.ofNat 32 n) 0#32)) 0#32 = 1#1 := by
  have h0 : Scalar.cmpi .eq (BitVec.ofNat 32 n) 0#32 = 0#1 :=
    (BitVec.eq_zero_or_eq_one _).resolve_right fun h1 => h (by
      have := congrArg BitVec.toNat (IntOp.cmpi_eq.mp h1)
      simp only [BitVec.toNat_ofNat] at this
      omega)
  rw [h0]; decide

theorem hz2 : (![0, 0] : Fin 2 → ℕ) = fun _ => 0 := by
  funext a; fin_cases a <;> rfl

theorem read_writes_whole_cons {Val : EltTy → Type} [∀ e, Nonempty (Val e)] {sg : RefSig} {κ : Kind} {sp : Space} {S : Shape} {e : EltTy}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨⟨Rect.unit off S.size inb, w⟩, List.mem_cons_self, View.mem_set_unit_zero h inb y⟩).trans (View.canon_cons_unit_zero h inb w L)

theorem readAt_whole_unread {Val : EltTy → Type} {sg : RefSig} {κ : Kind} {sp : Space} {S : Shape} {e : EltTy}
    (m : Memref sg κ sp S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X :=
  (View.readAt_eq_ld m.view (hm.unread X) (Rect.unit off S.size inb)).trans
    ((congrArg (fun Y => View.ld Y (Rect.unit off S.size inb)) (hm.read_unread X)).trans (View.ld_unit_zero h inb X))

/-- A row's first chunk: the sum starts from zero. -/
theorem sound_first0 (c : Dev nD) (E : Set ℕ) (i : grid0.Coords) (hi : (i 1).val = 0)
    (arg2 : Memref sig .tc .vmem S8000x8 .f32) (harg2 : arg2.IsWhole) (arg3 : Memref sig .tc .vmem S8000x1 .i32) (harg3 : arg3.IsWhole)
    (arg4 : Memref sig .tc .vmem S2000x8 .f32) (harg4 : arg4.IsWhole) (arg5 : Memref sig .tc .vmem S2000x8 .f32) (harg5 : arg5.IsWhole)
    (g : Vec F S8000x8 .f32) (d : Vec F S8000x1 .i32) (K : PUnit → sProp 𝕄) :
    iprop(owns c arg2 fullShare g ∗ owns c arg3 fullShare d
        ∗ (∃ o, owns c arg4 fullShare o) ∗ (∃ s, owns c arg5 fullShare s)
        ∗ (iprop(owns c arg2 fullShare g ∗ owns c arg3 fullShare d
              ∗ owns c arg4 fullShare (k0_pay2 i d g (k0_pay1 (F := F)))
              ∗ owns c arg5 fullShare (k0_pay2 i d g (k0_pay1 (F := F)))) -∗ K ⟨⟩))
      ⊢ wp frame (wpE (defs₀ (F := F)) Variants.none c none) E (cc0__segsum_kernel i arg2 harg2 arg3 harg3 arg4 harg4 arg5 harg5) K := by
  simp only [cc0__segsum_kernel_eq_skeleton]; unfold cc0__segsum_kernel_skel owns
  iintro ⟨⟨%f2, %hf2, H2⟩, ⟨%f3, %hf3, H3⟩, ⟨%o4, %f4, -, H4⟩, ⟨%s5, %f5, -, H5⟩, Hk⟩
  obtain rfl := harg2.eq_unread hf2; obtain rfl := harg3.eq_unread hf3
  have hc := cond_of_zero _ hi
  sl_exec (disch := first | exact hc)
  sl_step
  iapply Hk
  isplitl [H2]
  · iexists _; isplitr; · ipureintro; exact hf2
    iexact H2
  isplitl [H3]
  · iexists _; isplitr; · ipureintro; exact hf3
    iexact H3
  isplitl [H4] <;>
  · iexists _; isplitr
    swap; · iassumption
    ipureintro; sl_unfold_words
    rw [read_writes_whole_cons _ _ hz2]; repeat rw [View.readCov_cons_toLoadRect]
    rw [readAt_whole_unread arg3 harg3 hz2, readAt_whole_unread arg2 harg2 hz2]

/-- Any later chunk: the sum goes on from what the accumulator holds. -/
theorem sound_rest0 (c : Dev nD) (E : Set ℕ) (i : grid0.Coords) (hi : (i 1).val ≠ 0)
    (arg2 : Memref sig .tc .vmem S8000x8 .f32) (harg2 : arg2.IsWhole) (arg3 : Memref sig .tc .vmem S8000x1 .i32) (harg3 : arg3.IsWhole)
    (arg4 : Memref sig .tc .vmem S2000x8 .f32) (harg4 : arg4.IsWhole) (arg5 : Memref sig .tc .vmem S2000x8 .f32) (harg5 : arg5.IsWhole)
    (g : Vec F S8000x8 .f32) (d : Vec F S8000x1 .i32) (s : Vec F S2000x8 .f32) (K : PUnit → sProp 𝕄) :
    iprop(owns c arg2 fullShare g ∗ owns c arg3 fullShare d
        ∗ (∃ o, owns c arg4 fullShare o) ∗ owns c arg5 fullShare s
        ∗ (iprop(owns c arg2 fullShare g ∗ owns c arg3 fullShare d
              ∗ owns c arg4 fullShare (k0_pay2 i d g s)
              ∗ owns c arg5 fullShare (k0_pay2 i d g s)) -∗ K ⟨⟩))
      ⊢ wp frame (wpE (defs₀ (F := F)) Variants.none c none) E (cc0__segsum_kernel i arg2 harg2 arg3 harg3 arg4 harg4 arg5 harg5) K := by
  simp only [cc0__segsum_kernel_eq_skeleton]; unfold cc0__segsum_kernel_skel owns
  iintro ⟨⟨%f2, %hf2, H2⟩, ⟨%f3, %hf3, H3⟩, ⟨%o4, %f4, -, H4⟩, ⟨%f5, %hf5, H5⟩, Hk⟩
  obtain rfl := harg2.eq_unread hf2; obtain rfl := harg3.eq_unread hf3; obtain rfl := harg5.eq_unread hf5
  have hc := not_cond_of_ne _ (i 1).isLt hi
  sl_exec (disch := first | exact hc)
  sl_step
  iapply Hk
  isplitl [H2]
  · iexists _; isplitr; · ipureintro; exact hf2
    iexact H2
  isplitl [H3]
  · iexists _; isplitr; · ipureintro; exact hf3
    iexact H3
  isplitl [H4] <;>
  · iexists _; isplitr
    swap; · iassumption
    ipureintro; sl_unfold_words
    rw [read_writes_whole_cons _ _ hz2]; repeat rw [View.readCov_cons_toLoadRect]
    rw [readAt_whole_unread arg3 harg3 hz2, readAt_whole_unread arg2 harg2 hz2, readAt_whole_unread arg5 harg5 hz2]

end Cert.Kernel.SegSum

end
-- ==== Proof.KData0.lean ====
import proofs.«430351_j36395552866780_1_alg».proof.Proof.KBody0
import Idealize.ShloMosaic.Lib.Pipeline.RegionsLoop

noncomputable section

namespace Cert.Kernel.SegSum

open Idealize.ShloMosaic Idealize.ShloMosaic.TcCoe Idealize.SL.RA Idealize.SL.BI Idealize.SL.BI.BIBase
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)

theorem coords0_1 : ((grid0.coords t) 1).val = t.val % 625 :=
  congrArg (· % 625) (Nat.div_one _)

theorem coords0_0 : ((grid0.coords t) 0).val = t.val / 625 :=
  Nat.mod_eq_of_lt (Nat.div_lt_of_lt_mul (lt_of_lt_of_eq t.isLt N_0))

abbrev gblk0 : Vec F S8000x8 .f32 := ((cfg0.win 0).blk t).view.read (Elt F) (V c (Pipeline.arrRef spec0 0))
abbrev dblk0 : Vec F S8000x1 .i32 := ((cfg0.win 1).blk t).view.read (Elt F) (V c (Pipeline.arrRef spec0 1))

def step0 (acc : Vec F S2000x8 .f32) : Vec F S2000x8 .f32 :=
  k0_pay2 (grid0.coords t) (dblk0 V c t) (gblk0 V c t) acc

-- The running sum after point `n`: each row of 625 points restarts from zero.
def accAt0 : (n : ℕ) → n < cfg0.N → Vec F S2000x8 .f32
  | 0, hn => step0 V c ⟨0, hn⟩ k0_pay1
  | n + 1, hn => step0 V c ⟨n + 1, hn⟩ (if (n + 1) % 625 = 0 then k0_pay1 else accAt0 n (by omega))

theorem accAt0_first (h : t.val % 625 = 0) :
    accAt0 V c t.val t.isLt = step0 V c t k0_pay1 := by
  obtain ⟨_ | n, hn⟩ := t
  exacts [rfl, congrArg _ (if_pos h)]

theorem accAt0_rest (h : ¬ t.val % 625 = 0) :
    accAt0 V c t.val t.isLt = step0 V c t (accAt0 V c (t.val - 1) (by omega)) := by
  obtain ⟨_ | n, hn⟩ := t
  exacts [absurd (Nat.zero_mod _) h, congrArg _ (if_neg h)]

abbrev scM0 := Memref.whole cc0_scratch0

abbrev inv0 (P : sProp 𝕄) : sProp 𝕄 :=
  iprop(iprop(P ∗ (Pipeline.scopedRestBut spec0 c [cc0_scratch0] : sProp 𝕄)) ∗ (∃ r, prngReg c r))

theorem PhiA0_eq : (Pipeline.ΦA spec0 c : sProp 𝕄) = inv0 c iprop(∃ d, owns c scM0 fullShare d) := by
  unfold Pipeline.ΦA
  rw [Pipeline.scopedRest_split_of_list spec0 c [cc0_scratch0] (by decide) (by decide)]
  simp only [scM0, owns_whole]; rfl

def dat0 : Pipeline.Dat τ (Elt F) Unit ℕ (UR sig nD τ) ℕ cfg0 c where
  A w := V c (Pipeline.arrRef spec0 w)
  after w t := match w with
    | ⟨0, _⟩ => gblk0 V c t
    | ⟨1, _⟩ => dblk0 V c t
    | ⟨2, _⟩ => accAt0 V c t.val t.isLt
  Φ
    | ⟨0, _⟩ => Pipeline.ΦA spec0 c
    | ⟨n + 1, h⟩ => inv0 c (owns c scM0 fullShare (accAt0 V c n (by omega)))
  q _ := fullShare
  owed _ := 0

theorem after0_2 : (dat0 V c).after 2 t = accAt0 V c t.val t.isLt := rfl

-- Whatever the accumulator holds, it holds something.
theorem inv0_forget (t : Fin (cfg0.N + 1)) : (dat0 V c).Φ t ⊢ inv0 c iprop(∃ d, owns c scM0 fullShare d) := by
  obtain ⟨_ | n, h⟩ := t
  exacts [Entails.of_eq (PhiA0_eq c), sep_mono_l (sep_mono_l (Laws.exists_intro (PROP := sProp 𝕄) _))]

-- Past a row's first point the accumulator holds the sum up to the point before.
theorem inv0_rest (h : ¬ t.val % 625 = 0) :
    (dat0 V c).Φ t.castSucc ⊢ inv0 c (owns c scM0 fullShare (accAt0 V c (t.val - 1) (by omega))) := by
  obtain ⟨_ | n, hn⟩ := t
  exacts [absurd (Nat.zero_mod _) h, .rfl]

-- Each point adds its chunk's one-hot product: to zero at a row's first point, to the running sum elsewhere.
theorem body_obligation0 : Pipeline.BodyObligation (dat0 V c) defs₀ Variants.none () Set.univ := fun t => by
  rw [bigSep_W0, bigSep_W0, after0_2, show (dat0 V c).after 0 t = gblk0 V c t from rfl, show (dat0 V c).after 1 t = dblk0 V c t from rfl,
    show (dat0 V c).Φ t.succ = inv0 c (owns c scM0 fullShare (accAt0 V c t.val t.isLt)) from rfl]
  unfold inv0
  sl_whnfR [defs₀, Defs.onTc]
  iintro ⟨HΦ, Ho, ⟨%d0, H0⟩, ⟨%d1, H1⟩, ⟨%d2, H2⟩⟩
  rw [show _ = gblk0 V c t from (dat0 V c).before_in_eq_fetched 0 rfl (fun _ => rfl) (fun _ _ _ => rfl) (fun _ => rfl) t d0,
    show _ = dblk0 V c t from (dat0 V c).before_in_eq_fetched 1 rfl (fun _ => rfl) (fun _ _ _ => rfl) (fun _ => rfl) t d1]
  by_cases h0 : t.val % 625 = 0
  case' pos =>
    rw [accAt0_first V c t h0, step0]
    icases (inv0_forget V c _) $$ HΦ with ⟨⟨HS, Hr⟩, Hg⟩
    iapply (sound_first0 c Set.univ (grid0.coords t) ((coords0_1 t).trans h0) _ _ _ _ _ _ _ _ _ _ _)
  case' neg =>
    rw [accAt0_rest V c t h0, step0]
    icases (inv0_rest V c t h0) $$ HΦ with ⟨⟨HS, Hr⟩, Hg⟩
    iapply (sound_rest0 c Set.univ (grid0.coords t) (fun h => h0 ((coords0_1 t).symm.trans h)) _ _ _ _ _ _ _ _ _ _ _ _)
  all_goals
    iframe H0 H1 HS
    isplitl [H2]; · iexists _; iexact H2
    iintro ⟨H0, H1, H2, HS⟩; iframe; iexact Ho

theorem hin0 : (Pipeline.ΦA spec0 c : sProp 𝕄) ⊢ (dat0 V c).Φ 0 := .rfl

theorem hout0 : (dat0 V c).Φ (Fin.last cfg0.N) ⊢ (Pipeline.ΦA spec0 c : sProp 𝕄) := by
  rw [PhiA0_eq]; exact inv0_forget V c _

end Cert.Kernel.SegSum

end
-- ==== Proof.KBody1.lean ====
import proofs.«430351_j36395552866780_1_alg».proof.Proof.Gen.Kernel.Launch
import proofs.«430351_j36395552866780_1_alg».proof.Proof.Gen.Kernel.Skeleton
import proofs.«430351_j36395552866780_1_alg».proof.Proof.KBody0
import Idealize.ShloMosaic.Lib.Pipeline.FrameBody
import Idealize.ShloMosaic.Lib.Pipeline.Value
import Idealize.ShloMosaic.Lib.Ring
import Idealize.ShloMosaic.Lib.Tactic

noncomputable section

namespace Cert.Kernel.SegSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

/-- A row's first chunk: the sum starts from zero. -/
theorem sound_first1 (c : Dev nD) (E : Set ℕ) (i : grid1.Coords) (hi : (i 1).val = 0)
    (arg2 : Memref sig .tc .vmem S8000x16 .f32) (harg2 : arg2.IsWhole) (arg3 : Memref sig .tc .vmem S8000x1 .i32) (harg3 : arg3.IsWhole)
    (arg4 : Memref sig .tc .vmem S2000x16 .f32) (harg4 : arg4.IsWhole) (arg5 : Memref sig .tc .vmem S2000x16 .f32) (harg5 : arg5.IsWhole)
    (g : Vec F S8000x16 .f32) (d : Vec F S8000x1 .i32) (K : PUnit → sProp 𝕄) :
    iprop(owns c arg2 fullShare g ∗ owns c arg3 fullShare d
        ∗ (∃ o, owns c arg4 fullShare o) ∗ (∃ s, owns c arg5 fullShare s)
        ∗ (iprop(owns c arg2 fullShare g ∗ owns c arg3 fullShare d
              ∗ owns c arg4 fullShare (k1_pay2 i d g (k1_pay1 (F := F)))
              ∗ owns c arg5 fullShare (k1_pay2 i d g (k1_pay1 (F := F)))) -∗ K ⟨⟩))
      ⊢ wp frame (wpE (defs₀ (F := F)) Variants.none c none) E (cc1__segsum_kernel i arg2 harg2 arg3 harg3 arg4 harg4 arg5 harg5) K := by
  simp only [cc1__segsum_kernel_eq_skeleton]; unfold cc1__segsum_kernel_skel owns
  iintro ⟨⟨%f2, %hf2, H2⟩, ⟨%f3, %hf3, H3⟩, ⟨%o4, %f4, -, H4⟩, ⟨%s5, %f5, -, H5⟩, Hk⟩
  obtain rfl := harg2.eq_unread hf2; obtain rfl := harg3.eq_unread hf3
  have hc := cond_of_zero _ hi
  sl_exec (disch := first | exact hc)
  sl_step
  iapply Hk
  isplitl [H2]
  · iexists _; isplitr; · ipureintro; exact hf2
    iexact H2
  isplitl [H3]
  · iexists _; isplitr; · ipureintro; exact hf3
    iexact H3
  isplitl [H4] <;>
  · iexists _; isplitr
    swap; · iassumption
    ipureintro; sl_unfold_words
    rw [read_writes_whole_cons _ _ hz2]; repeat rw [View.readCov_cons_toLoadRect]
    rw [readAt_whole_unread arg3 harg3 hz2, readAt_whole_unread arg2 harg2 hz2]

/-- Any later chunk: the sum goes on from what the accumulator holds. -/
theorem sound_rest1 (c : Dev nD) (E : Set ℕ) (i : grid1.Coords) (hi : (i 1).val ≠ 0)
    (arg2 : Memref sig .tc .vmem S8000x16 .f32) (harg2 : arg2.IsWhole) (arg3 : Memref sig .tc .vmem S8000x1 .i32) (harg3 : arg3.IsWhole)
    (arg4 : Memref sig .tc .vmem S2000x16 .f32) (harg4 : arg4.IsWhole) (arg5 : Memref sig .tc .vmem S2000x16 .f32) (harg5 : arg5.IsWhole)
    (g : Vec F S8000x16 .f32) (d : Vec F S8000x1 .i32) (s : Vec F S2000x16 .f32) (K : PUnit → sProp 𝕄) :
    iprop(owns c arg2 fullShare g ∗ owns c arg3 fullShare d
        ∗ (∃ o, owns c arg4 fullShare o) ∗ owns c arg5 fullShare s
        ∗ (iprop(owns c arg2 fullShare g ∗ owns c arg3 fullShare d
              ∗ owns c arg4 fullShare (k1_pay2 i d g s)
              ∗ owns c arg5 fullShare (k1_pay2 i d g s)) -∗ K ⟨⟩))
      ⊢ wp frame (wpE (defs₀ (F := F)) Variants.none c none) E (cc1__segsum_kernel i arg2 harg2 arg3 harg3 arg4 harg4 arg5 harg5) K := by
  simp only [cc1__segsum_kernel_eq_skeleton]; unfold cc1__segsum_kernel_skel owns
  iintro ⟨⟨%f2, %hf2, H2⟩, ⟨%f3, %hf3, H3⟩, ⟨%o4, %f4, -, H4⟩, ⟨%f5, %hf5, H5⟩, Hk⟩
  obtain rfl := harg2.eq_unread hf2; obtain rfl := harg3.eq_unread hf3; obtain rfl := harg5.eq_unread hf5
  have hc := not_cond_of_ne _ (i 1).isLt hi
  sl_exec (disch := first | exact hc)
  sl_step
  iapply Hk
  isplitl [H2]
  · iexists _; isplitr; · ipureintro; exact hf2
    iexact H2
  isplitl [H3]
  · iexists _; isplitr; · ipureintro; exact hf3
    iexact H3
  isplitl [H4] <;>
  · iexists _; isplitr
    swap; · iassumption
    ipureintro; sl_unfold_words
    rw [read_writes_whole_cons _ _ hz2]; repeat rw [View.readCov_cons_toLoadRect]
    rw [readAt_whole_unread arg3 harg3 hz2, readAt_whole_unread arg2 harg2 hz2, readAt_whole_unread arg5 harg5 hz2]

end Cert.Kernel.SegSum

end
-- ==== Proof.KData1.lean ====
import proofs.«430351_j36395552866780_1_alg».proof.Proof.KBody1
import Idealize.ShloMosaic.Lib.Pipeline.RegionsLoop

noncomputable section

namespace Cert.Kernel.SegSum

open Idealize.ShloMosaic Idealize.ShloMosaic.TcCoe Idealize.SL.RA Idealize.SL.BI Idealize.SL.BI.BIBase
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg1.N)

theorem coords1_1 : ((grid1.coords t) 1).val = t.val % 625 :=
  congrArg (· % 625) (Nat.div_one _)

theorem coords1_0 : ((grid1.coords t) 0).val = t.val / 625 :=
  Nat.mod_eq_of_lt (Nat.div_lt_of_lt_mul (lt_of_lt_of_eq t.isLt N_1))

abbrev gblk1 : Vec F S8000x16 .f32 := ((cfg1.win 0).blk t).view.read (Elt F) (V c (Pipeline.arrRef spec1 0))
abbrev dblk1 : Vec F S8000x1 .i32 := ((cfg1.win 1).blk t).view.read (Elt F) (V c (Pipeline.arrRef spec1 1))

def step1 (acc : Vec F S2000x16 .f32) : Vec F S2000x16 .f32 :=
  k1_pay2 (grid1.coords t) (dblk1 V c t) (gblk1 V c t) acc

-- The running sum after point `n`: each row of 625 points restarts from zero.
def accAt1 : (n : ℕ) → n < cfg1.N → Vec F S2000x16 .f32
  | 0, hn => step1 V c ⟨0, hn⟩ k1_pay1
  | n + 1, hn => step1 V c ⟨n + 1, hn⟩ (if (n + 1) % 625 = 0 then k1_pay1 else accAt1 n (by omega))

theorem accAt1_first (h : t.val % 625 = 0) :
    accAt1 V c t.val t.isLt = step1 V c t k1_pay1 := by
  obtain ⟨_ | n, hn⟩ := t
  exacts [rfl, congrArg _ (if_pos h)]

theorem accAt1_rest (h : ¬ t.val % 625 = 0) :
    accAt1 V c t.val t.isLt = step1 V c t (accAt1 V c (t.val - 1) (by omega)) := by
  obtain ⟨_ | n, hn⟩ := t
  exacts [absurd (Nat.zero_mod _) h, congrArg _ (if_neg h)]

abbrev scM1 := Memref.whole cc1_scratch0

abbrev inv1 (P : sProp 𝕄) : sProp 𝕄 :=
  iprop(iprop(P ∗ (Pipeline.scopedRestBut spec1 c [cc1_scratch0] : sProp 𝕄)) ∗ (∃ r, prngReg c r))

theorem PhiA1_eq : (Pipeline.ΦA spec1 c : sProp 𝕄) = inv1 c iprop(∃ d, owns c scM1 fullShare d) := by
  unfold Pipeline.ΦA
  rw [Pipeline.scopedRest_split_of_list spec1 c [cc1_scratch0] (by decide) (by decide)]
  simp only [scM1, owns_whole]; rfl

def dat1 : Pipeline.Dat τ (Elt F) Unit ℕ (UR sig nD τ) ℕ cfg1 c where
  A w := V c (Pipeline.arrRef spec1 w)
  after w t := match w with
    | ⟨0, _⟩ => gblk1 V c t
    | ⟨1, _⟩ => dblk1 V c t
    | ⟨2, _⟩ => accAt1 V c t.val t.isLt
  Φ
    | ⟨0, _⟩ => Pipeline.ΦA spec1 c
    | ⟨n + 1, h⟩ => inv1 c (owns c scM1 fullShare (accAt1 V c n (by omega)))
  q _ := fullShare
  owed _ := 0

theorem after1_2 : (dat1 V c).after 2 t = accAt1 V c t.val t.isLt := rfl

-- Whatever the accumulator holds, it holds something.
theorem inv1_forget (t : Fin (cfg1.N + 1)) : (dat1 V c).Φ t ⊢ inv1 c iprop(∃ d, owns c scM1 fullShare d) := by
  obtain ⟨_ | n, h⟩ := t
  exacts [Entails.of_eq (PhiA1_eq c), sep_mono_l (sep_mono_l (Laws.exists_intro (PROP := sProp 𝕄) _))]

-- Past a row's first point the accumulator holds the sum up to the point before.
theorem inv1_rest (h : ¬ t.val % 625 = 0) :
    (dat1 V c).Φ t.castSucc ⊢ inv1 c (owns c scM1 fullShare (accAt1 V c (t.val - 1) (by omega))) := by
  obtain ⟨_ | n, hn⟩ := t
  exacts [absurd (Nat.zero_mod _) h, .rfl]

-- Each point adds its chunk's one-hot product: to zero at a row's first point, to the running sum elsewhere.
theorem body_obligation1 : Pipeline.BodyObligation (dat1 V c) defs₀ Variants.none () Set.univ := fun t => by
  rw [bigSep_W1, bigSep_W1, after1_2, show (dat1 V c).after 0 t = gblk1 V c t from rfl, show (dat1 V c).after 1 t = dblk1 V c t from rfl,
    show (dat1 V c).Φ t.succ = inv1 c (owns c scM1 fullShare (accAt1 V c t.val t.isLt)) from rfl]
  unfold inv1
  sl_whnfR [defs₀, Defs.onTc]
  iintro ⟨HΦ, Ho, ⟨%d0, H0⟩, ⟨%d1, H1⟩, ⟨%d2, H2⟩⟩
  rw [show _ = gblk1 V c t from (dat1 V c).before_in_eq_fetched 0 rfl (fun _ => rfl) (fun _ _ _ => rfl) (fun _ => rfl) t d0,
    show _ = dblk1 V c t from (dat1 V c).before_in_eq_fetched 1 rfl (fun _ => rfl) (fun _ _ _ => rfl) (fun _ => rfl) t d1]
  by_cases h0 : t.val % 625 = 0
  case' pos =>
    rw [accAt1_first V c t h0, step1]
    icases (inv1_forget V c _) $$ HΦ with ⟨⟨HS, Hr⟩, Hg⟩
    iapply (sound_first1 c Set.univ (grid1.coords t) ((coords1_1 t).trans h0) _ _ _ _ _ _ _ _ _ _ _)
  case' neg =>
    rw [accAt1_rest V c t h0, step1]
    icases (inv1_rest V c t h0) $$ HΦ with ⟨⟨HS, Hr⟩, Hg⟩
    iapply (sound_rest1 c Set.univ (grid1.coords t) (fun h => h0 ((coords1_1 t).symm.trans h)) _ _ _ _ _ _ _ _ _ _ _ _)
  all_goals
    iframe H0 H1 HS
    isplitl [H2]; · iexists _; iexact H2
    iintro ⟨H0, H1, H2, HS⟩; iframe; iexact Ho

theorem hin1 : (Pipeline.ΦA spec1 c : sProp 𝕄) ⊢ (dat1 V c).Φ 0 := .rfl

theorem hout1 : (dat1 V c).Φ (Fin.last cfg1.N) ⊢ (Pipeline.ΦA spec1 c : sProp 𝕄) := by
  rw [PhiA1_eq]; exact inv1_forget V c _

end Cert.Kernel.SegSum

end
-- ==== Proof.KBody2.lean ====
import proofs.«430351_j36395552866780_1_alg».proof.Proof.KBody1

noncomputable section

namespace Cert.Kernel.SegSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

/-- Regions 1 and 2 run the same kernel body at the same shapes: region 2's two facts are region 1's, by unfolding. -/
theorem sound_first2 (c : Dev nD) (E : Set ℕ) (i : grid2.Coords) (hi : (i 1).val = 0)
    (arg2 : Memref sig .tc .vmem S8000x16 .f32) (harg2 : arg2.IsWhole) (arg3 : Memref sig .tc .vmem S8000x1 .i32) (harg3 : arg3.IsWhole)
    (arg4 : Memref sig .tc .vmem S2000x16 .f32) (harg4 : arg4.IsWhole) (arg5 : Memref sig .tc .vmem S2000x16 .f32) (harg5 : arg5.IsWhole)
    (g : Vec F S8000x16 .f32) (d : Vec F S8000x1 .i32) (K : PUnit → sProp 𝕄) :
    iprop(owns c arg2 fullShare g ∗ owns c arg3 fullShare d
        ∗ (∃ o, owns c arg4 fullShare o) ∗ (∃ s, owns c arg5 fullShare s)
        ∗ (iprop(owns c arg2 fullShare g ∗ owns c arg3 fullShare d
              ∗ owns c arg4 fullShare (k2_pay2 i d g (k2_pay1 (F := F)))
              ∗ owns c arg5 fullShare (k2_pay2 i d g (k2_pay1 (F := F)))) -∗ K ⟨⟩))
      ⊢ wp frame (wpE (defs₀ (F := F)) Variants.none c none) E (cc2__segsum_kernel i arg2 harg2 arg3 harg3 arg4 harg4 arg5 harg5) K :=
  sound_first1 c E i hi arg2 harg2 arg3 harg3 arg4 harg4 arg5 harg5 g d K

theorem sound_rest2 (c : Dev nD) (E : Set ℕ) (i : grid2.Coords) (hi : (i 1).val ≠ 0)
    (arg2 : Memref sig .tc .vmem S8000x16 .f32) (harg2 : arg2.IsWhole) (arg3 : Memref sig .tc .vmem S8000x1 .i32) (harg3 : arg3.IsWhole)
    (arg4 : Memref sig .tc .vmem S2000x16 .f32) (harg4 : arg4.IsWhole) (arg5 : Memref sig .tc .vmem S2000x16 .f32) (harg5 : arg5.IsWhole)
    (g : Vec F S8000x16 .f32) (d : Vec F S8000x1 .i32) (s : Vec F S2000x16 .f32) (K : PUnit → sProp 𝕄) :
    iprop(owns c arg2 fullShare g ∗ owns c arg3 fullShare d
        ∗ (∃ o, owns c arg4 fullShare o) ∗ owns c arg5 fullShare s
        ∗ (iprop(owns c arg2 fullShare g ∗ owns c arg3 fullShare d
              ∗ owns c arg4 fullShare (k2_pay2 i d g s)
              ∗ owns c arg5 fullShare (k2_pay2 i d g s)) -∗ K ⟨⟩))
      ⊢ wp frame (wpE (defs₀ (F := F)) Variants.none c none) E (cc2__segsum_kernel i arg2 harg2 arg3 harg3 arg4 harg4 arg5 harg5) K :=
  sound_rest1 c E i hi arg2 harg2 arg3 harg3 arg4 harg4 arg5 harg5 g d s K

end Cert.Kernel.SegSum

end
-- ==== Proof.KData2.lean ====
import proofs.«430351_j36395552866780_1_alg».proof.Proof.KBody2
import Idealize.ShloMosaic.Lib.Pipeline.RegionsLoop

noncomputable section

namespace Cert.Kernel.SegSum

open Idealize.ShloMosaic Idealize.ShloMosaic.TcCoe Idealize.SL.RA Idealize.SL.BI Idealize.SL.BI.BIBase
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg2.N)

theorem coords2_1 : ((grid2.coords t) 1).val = t.val % 625 :=
  congrArg (· % 625) (Nat.div_one _)

theorem coords2_0 : ((grid2.coords t) 0).val = t.val / 625 :=
  Nat.mod_eq_of_lt (Nat.div_lt_of_lt_mul (lt_of_lt_of_eq t.isLt N_2))

abbrev gblk2 : Vec F S8000x16 .f32 := ((cfg2.win 0).blk t).view.read (Elt F) (V c (Pipeline.arrRef spec2 0))
abbrev dblk2 : Vec F S8000x1 .i32 := ((cfg2.win 1).blk t).view.read (Elt F) (V c (Pipeline.arrRef spec2 1))

def step2 (acc : Vec F S2000x16 .f32) : Vec F S2000x16 .f32 :=
  k2_pay2 (grid2.coords t) (dblk2 V c t) (gblk2 V c t) acc

-- The running sum after point `n`: each row of 625 points restarts from zero.
def accAt2 : (n : ℕ) → n < cfg2.N → Vec F S2000x16 .f32
  | 0, hn => step2 V c ⟨0, hn⟩ k2_pay1
  | n + 1, hn => step2 V c ⟨n + 1, hn⟩ (if (n + 1) % 625 = 0 then k2_pay1 else accAt2 n (by omega))

theorem accAt2_first (h : t.val % 625 = 0) :
    accAt2 V c t.val t.isLt = step2 V c t k2_pay1 := by
  obtain ⟨_ | n, hn⟩ := t
  exacts [rfl, congrArg _ (if_pos h)]

theorem accAt2_rest (h : ¬ t.val % 625 = 0) :
    accAt2 V c t.val t.isLt = step2 V c t (accAt2 V c (t.val - 1) (by omega)) := by
  obtain ⟨_ | n, hn⟩ := t
  exacts [absurd (Nat.zero_mod _) h, congrArg _ (if_neg h)]

abbrev scM2 := Memref.whole cc2_scratch0

abbrev inv2 (P : sProp 𝕄) : sProp 𝕄 :=
  iprop(iprop(P ∗ (Pipeline.scopedRestBut spec2 c [cc2_scratch0] : sProp 𝕄)) ∗ (∃ r, prngReg c r))

theorem PhiA2_eq : (Pipeline.ΦA spec2 c : sProp 𝕄) = inv2 c iprop(∃ d, owns c scM2 fullShare d) := by
  unfold Pipeline.ΦA
  rw [Pipeline.scopedRest_split_of_list spec2 c [cc2_scratch0] (by decide) (by decide)]
  simp only [scM2, owns_whole]; rfl

def dat2 : Pipeline.Dat τ (Elt F) Unit ℕ (UR sig nD τ) ℕ cfg2 c where
  A w := V c (Pipeline.arrRef spec2 w)
  after w t := match w with
    | ⟨0, _⟩ => gblk2 V c t
    | ⟨1, _⟩ => dblk2 V c t
    | ⟨2, _⟩ => accAt2 V c t.val t.isLt
  Φ
    | ⟨0, _⟩ => Pipeline.ΦA spec2 c
    | ⟨n + 1, h⟩ => inv2 c (owns c scM2 fullShare (accAt2 V c n (by omega)))
  q _ := fullShare
  owed _ := 0

theorem after2_2 : (dat2 V c).after 2 t = accAt2 V c t.val t.isLt := rfl

-- Whatever the accumulator holds, it holds something.
theorem inv2_forget (t : Fin (cfg2.N + 1)) : (dat2 V c).Φ t ⊢ inv2 c iprop(∃ d, owns c scM2 fullShare d) := by
  obtain ⟨_ | n, h⟩ := t
  exacts [Entails.of_eq (PhiA2_eq c), sep_mono_l (sep_mono_l (Laws.exists_intro (PROP := sProp 𝕄) _))]

-- Past a row's first point the accumulator holds the sum up to the point before.
theorem inv2_rest (h : ¬ t.val % 625 = 0) :
    (dat2 V c).Φ t.castSucc ⊢ inv2 c (owns c scM2 fullShare (accAt2 V c (t.val - 1) (by omega))) := by
  obtain ⟨_ | n, hn⟩ := t
  exacts [absurd (Nat.zero_mod _) h, .rfl]

-- Each point adds its chunk's one-hot product: to zero at a row's first point, to the running sum elsewhere.
theorem body_obligation2 : Pipeline.BodyObligation (dat2 V c) defs₀ Variants.none () Set.univ := fun t => by
  rw [bigSep_W2, bigSep_W2, after2_2, show (dat2 V c).after 0 t = gblk2 V c t from rfl, show (dat2 V c).after 1 t = dblk2 V c t from rfl,
    show (dat2 V c).Φ t.succ = inv2 c (owns c scM2 fullShare (accAt2 V c t.val t.isLt)) from rfl]
  unfold inv2
  sl_whnfR [defs₀, Defs.onTc]
  iintro ⟨HΦ, Ho, ⟨%d0, H0⟩, ⟨%d1, H1⟩, ⟨%d2, H2⟩⟩
  rw [show _ = gblk2 V c t from (dat2 V c).before_in_eq_fetched 0 rfl (fun _ => rfl) (fun _ _ _ => rfl) (fun _ => rfl) t d0,
    show _ = dblk2 V c t from (dat2 V c).before_in_eq_fetched 1 rfl (fun _ => rfl) (fun _ _ _ => rfl) (fun _ => rfl) t d1]
  by_cases h0 : t.val % 625 = 0
  case' pos =>
    rw [accAt2_first V c t h0, step2]
    icases (inv2_forget V c _) $$ HΦ with ⟨⟨HS, Hr⟩, Hg⟩
    iapply (sound_first2 c Set.univ (grid2.coords t) ((coords2_1 t).trans h0) _ _ _ _ _ _ _ _ _ _ _)
  case' neg =>
    rw [accAt2_rest V c t h0, step2]
    icases (inv2_rest V c t h0) $$ HΦ with ⟨⟨HS, Hr⟩, Hg⟩
    iapply (sound_rest2 c Set.univ (grid2.coords t) (fun h => h0 ((coords2_1 t).symm.trans h)) _ _ _ _ _ _ _ _ _ _ _ _)
  all_goals
    iframe H0 H1 HS
    isplitl [H2]; · iexists _; iexact H2
    iintro ⟨H0, H1, H2, HS⟩; iframe; iexact Ho

theorem hin2 : (Pipeline.ΦA spec2 c : sProp 𝕄) ⊢ (dat2 V c).Φ 0 := .rfl

theorem hout2 : (dat2 V c).Φ (Fin.last cfg2.N) ⊢ (Pipeline.ΦA spec2 c : sProp 𝕄) := by
  rw [PhiA2_eq]; exact inv2_forget V c _

end Cert.Kernel.SegSum

end
-- ==== Proof.KRun.lean ====
import proofs.«430351_j36395552866780_1_alg».proof.Proof.KData0
import proofs.«430351_j36395552866780_1_alg».proof.Proof.KData1
import proofs.«430351_j36395552866780_1_alg».proof.Proof.KData2
import proofs.«430351_j36395552866780_1_alg».proof.Proof.Gen.Kernel.Regions

noncomputable section

namespace Cert.Kernel.SegSum

open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat BodyObligation)
open Cert.Kernel Cert.Kernel.Gen

variable {F : FTy → Type} [FloatOps F]

local notation "𝕄" => MT nD τ sig Unit (Elt F) ℕ (UR sig nD τ) ℕ

abbrev RefVal (F : FTy → Type) [FloatOps F] : Type := (c : Dev nD) → (b : Ref sig .tc) → Buf (Elt F) ((c : Thread nD τ).loc b)

abbrev e0 (m : (ℓ : Loc nD τ sig) → Buf (Elt F) ℓ) (outs : Outs (F := F)) : RefVal F := fun c b => Gen.V1 m c b
abbrev e1 (m : (ℓ : Loc nD τ sig) → Buf (Elt F) ℓ) (outs : Outs (F := F)) : RefVal F := fun c b => Gen.V7 m outs c b
abbrev e2 (m : (ℓ : Loc nD τ sig) → Buf (Elt F) ℓ) (outs : Outs (F := F)) : RefVal F := fun c b => Gen.V13 m outs c b

variable (m : (ℓ : Loc nD τ sig) → Buf (Elt F) ℓ) (outs : Outs (F := F))

def Solves : Prop :=
  (∀ c, outs 2 main_v12 c = (dat0 (e0 m outs) c).arrAt 2 cfg0.N)
  ∧ (∀ c, outs 8 main_v57 c = (dat1 (e1 m outs) c).arrAt 2 cfg1.N)
  ∧ (∀ c, outs 14 main_v102 c = (dat2 (e2 m outs) c).arrAt 2 cfg2.N)

def pdats : (p : Fin 3) → (c : Dev nD) → Dat τ (Elt F) Unit ℕ (UR sig nD τ) ℕ (cfgs p) c
  | ⟨0, _⟩ => fun c => dat0 (e0 m outs) c
  | ⟨1, _⟩ => fun c => dat1 (e1 m outs) c
  | ⟨2, _⟩ => fun c => dat2 (e2 m outs) c

abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)

set_option backward.isDefEq.respectTransparency.types false in
def regOf (p : Fin 3) (lf : Pipeline.LaunchFacts (nD := nD) (τ := τ) cfgs p) (Ve Vx : Dev nD → Valuation τ sig (Elt F))
    (hbody : ∀ c, BodyObligation (pdats m outs p c) (defs₀ (F := F)) Variants.none () Set.univ)
    (hD : ∀ c, (∀ w, (pdats m outs p c).A w = Ve c (Pipeline.arrRef (cfgs p).spec w)) ∧ (∀ w, (pdats m outs p c).q w = fullShare)
      ∧ (∀ t, (pdats m outs p c).owed t = 0) ∧ (pdats m outs p c).recorded 0 = Set.univ)
    (hΦ0 : ∀ c, (Pipeline.ΦA (cfgs p).spec c : sProp 𝕄) ⊢ (pdats m outs p c).Φ 0)
    (hΦN : ∀ c, (pdats m outs p c).Φ (Fin.last (cfgs p).N) ⊢ (Pipeline.ΦA (cfgs p).spec c : sProp 𝕄))
    (w₀ : Fin (cfgs p).W) (hio : ∀ w, w ≠ w₀ → ((cfgs p).win w).isOut = false)
    (h₀ : ∀ c, Vx c (Pipeline.arrRef (cfgs p).spec w₀) = (pdats m outs p c).arrAt w₀ (cfgs p).N)
    (hV : ∀ c (b : Ref sig .tc), b ≠ Pipeline.arrRef (cfgs p).spec w₀ → Vx c b = Ve c b) :
    Pipeline.RegionSeg (pcfgs (F := F)) adm (pdats m outs) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p fun c => (hD c).2.2.1
  pre c := iprop(StableHlo.held (c : Thread nD τ) (Pipeline.ucRefs τ sig) (Ve c) ∗ Rr c)
  post c := iprop(StableHlo.held (c : Thread nD τ) (Pipeline.ucRefs τ sig) (Vx c) ∗ Rr c)
  X c := iprop(∃ r, prngReg c r)
  Y c := iprop(∃ r, prngReg c r)
  Z c := Pipeline.unscopedRest (Ix := Unit) (Name := ℕ) (U := UR sig nD τ) (Lvl := ℕ) (cfgs p).spec c fun b => Ve c b
  hentry c := by
    rw [Pipeline.ownSems0_none]
    have hsplit := Pipeline.arrays_of_unscopedBufs (p := p) (pcfgs (F := F)) adm (pdats m outs) lf.win lf.arr_whole c
      ((pdats m outs p c).share_full (hD c).2.1) (fun b => Ve c b) (hD c).1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [(hD c).2.2.1, (hD c).2.2.2]
      icases HO with ⟨%W, HO⟩; iexists W; isplitr; · ipureintro; exact fun _ _ => Or.inl trivial
      iexact HO
    isplitl [Hp]; · iexact Hp
    iexact Hrest
  hin c := by
    refine .trans ?_ (hΦ0 c)
    unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m outs) ((pdats m outs p c).share_full (hD c).2.1)
      (fun b => Ve c b) (fun b => Vx c b) ((pdats m outs p c).arrAt · (cfgs p).N)
      (fun w => by
        by_cases hw : w = w₀
        · subst hw; exact (h₀ c).symm
        · exact ((pdats m outs p c).arrAt_in w (hio w hw) _).trans (((hD c).1 w).trans (hV c _ fun e => hw (lf.win.arr_inj e)).symm))
      fun b hb => hV c b fun e => hb (Finset.mem_image.mpr ⟨w₀, Finset.mem_univ _, e.symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(hD c).2.2.1]
    icases HO with ⟨%W, -, HO⟩; iexists W; iexact HO

def reg0 (hs : Solves m outs) : Pipeline.RegionSeg (pcfgs (F := F)) adm (pdats m outs) () defs₀ 𝒱₀ L lv 0 :=
  regOf m outs 0 launch0 (Gen.V1 m) (Gen.V2 m outs) (body_obligation0 (e0 m outs)) (fun _ => ⟨fun _ => rfl, fun _ => rfl, fun _ => rfl, rfl⟩)
    (hin0 (e0 m outs)) (hout0 (e0 m outs)) 2 (by decide)
    (fun c => (Function.update_self ..).trans (hs.1 c))
    fun c b hb => Gen.V2_of m outs c b fun hm => hb (List.mem_singleton.mp hm)

def reg1 (hs : Solves m outs) : Pipeline.RegionSeg (pcfgs (F := F)) adm (pdats m outs) () defs₀ 𝒱₀ L lv 1 :=
  regOf m outs 1 launch1 (Gen.V7 m outs) (Gen.V8 m outs) (body_obligation1 (e1 m outs)) (fun _ => ⟨fun _ => rfl, fun _ => rfl, fun _ => rfl, rfl⟩)
    (hin1 (e1 m outs)) (hout1 (e1 m outs)) 2 (by decide)
    (fun c => (Function.update_self ..).trans (hs.2.1 c))
    fun c b hb => Gen.V8_of m outs c b fun hm => hb (List.mem_singleton.mp hm)

def reg2 (hs : Solves m outs) : Pipeline.RegionSeg (pcfgs (F := F)) adm (pdats m outs) () defs₀ 𝒱₀ L lv 2 :=
  regOf m outs 2 launch2 (Gen.V13 m outs) (Gen.V14 m outs) (body_obligation2 (e2 m outs)) (fun _ => ⟨fun _ => rfl, fun _ => rfl, fun _ => rfl, rfl⟩)
    (hin2 (e2 m outs)) (hout2 (e2 m outs)) 2 (by decide)
    (fun c => (Function.update_self ..).trans (hs.2.2 c))
    fun c b hb => Gen.V14_of m outs c b fun hm => hb (List.mem_singleton.mp hm)

end Cert.Kernel.SegSum

end
-- ==== Proof.KFrame.lean ====
import proofs.«430351_j36395552866780_1_alg».proof.Proof.KRun

noncomputable section

namespace Cert.Kernel.SegSum

open Idealize.ShloMosaic Idealize.ShloMosaic.TcCoe
open Idealize.SL Idealize.SL.BI
open scoped Idealize.SL.BI
open Idealize.SL.BI.BIBase Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem V7_congr (outs outs' : Outs (F := F)) (c : Dev nD) (h2 : outs 2 main_v12 c = outs' 2 main_v12 c) :
    Gen.V7 m outs c = Gen.V7 m outs' c := by
  unfold Gen.V7 Gen.V6 Gen.V5 Gen.V4 Gen.V3 Gen.V2
  rw [h2]

theorem V13_congr (outs outs' : Outs (F := F)) (c : Dev nD) (h2 : outs 2 main_v12 c = outs' 2 main_v12 c)
    (h8 : outs 8 main_v57 c = outs' 8 main_v57 c) :
    Gen.V13 m outs c = Gen.V13 m outs' c := by
  unfold Gen.V13 Gen.V12 Gen.V11 Gen.V10 Gen.V9 Gen.V8
  rw [h8, V7_congr m outs outs' c h2]

def outsA : Outs (F := F) := fun _ r c => Gen.V0 m c r
def o2 (c : Dev nD) : Buf (Elt F) ((c : Thread nD τ).loc main_v12) := (dat0 (e0 m (outsA m)) c).arrAt 2 cfg0.N
def outsB : Outs (F := F) := fun j => Function.update (outsA m j) main_v12 (o2 m)
def o8 (c : Dev nD) : Buf (Elt F) ((c : Thread nD τ).loc main_v57) := (dat1 (e1 m (outsB m)) c).arrAt 2 cfg1.N
def outsC : Outs (F := F) := fun j => Function.update (outsB m j) main_v57 (o8 m)
def o14 (c : Dev nD) : Buf (Elt F) ((c : Thread nD τ).loc main_v102) := (dat2 (e2 m (outsC m)) c).arrAt 2 cfg2.N
def outsD : Outs (F := F) := fun j => Function.update (outsC m j) main_v102 (o14 m)

theorem outsD_2 (c : Dev nD) : outsD m 2 main_v12 c = o2 m c := by
  unfold outsD outsC outsB
  rw [Function.update_of_ne (by decide), Function.update_of_ne (by decide), Function.update_self]
theorem outsC_2 (c : Dev nD) : outsC m 2 main_v12 c = o2 m c := by
  unfold outsC outsB
  rw [Function.update_of_ne (by decide), Function.update_self]
theorem outsB_2 (c : Dev nD) : outsB m 2 main_v12 c = o2 m c := by
  unfold outsB
  rw [Function.update_self]
theorem outsD_8 (c : Dev nD) : outsD m 8 main_v57 c = o8 m c := by
  unfold outsD outsC
  rw [Function.update_of_ne (by decide), Function.update_self]
theorem outsC_8 (c : Dev nD) : outsC m 8 main_v57 c = o8 m c := by
  unfold outsC
  rw [Function.update_self]
theorem outsD_14 (c : Dev nD) : outsD m 14 main_v102 c = o14 m c := by
  unfold outsD
  rw [Function.update_self]

/-- Each region's output is solved before the regions after it write theirs, and those write other arrays. -/
theorem solves : Solves m (outsD m) := by
  refine ⟨fun c => outsD_2 m c, fun c => ?_, fun c => ?_⟩
  · have he : e1 m (outsB m) = e1 m (outsD m) := funext fun c => funext fun b =>
      congrFun (V7_congr m _ _ c ((outsB_2 m c).trans (outsD_2 m c).symm)) (Proc.devRef .tc b)
    rw [outsD_8, o8, he]
  · have he : e2 m (outsC m) = e2 m (outsD m) := funext fun c => funext fun b =>
      congrFun (V13_congr m _ _ c ((outsC_2 m c).trans (outsD_2 m c).symm) ((outsC_8 m c).trans (outsD_8 m c).symm)) (Proc.devRef .tc b)
    rw [outsD_14, o14, he]

/-- The frame's post as one recursion over the argument arrays: it unfolds to the conjunction of their clauses. -/
def Kept (s : (ℓ : Loc nD τ sig) → Buf (Elt F) ℓ) (c : Dev nD) : Ref sig .tc → List (Ref sig .tc) → Prop
  | b, [] => s ((c.tc : Thread nD τ).loc b) = m ((c.tc : Thread nD τ).loc b)
  | b, b' :: bs => s ((c.tc : Thread nD τ).loc b) = m ((c.tc : Thread nD τ).loc b) ∧ Kept s c b' bs

abbrev args : List (Ref sig .tc) := [main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

abbrev u₀ : UR sig nD τ := initOf (Pipeline.cells cfgs cellOf_inj) (Pipeline.launchToks cfgs cellOf_inj)

theorem hu₀ : (ownU u₀ : sProp 𝕄)
    ⊢ |={Set.univ}=> iprop(BI.own (emb₁ u₀) ∗ bigSep Finset.univ fun _ : Dev nD => (BI.emp : sProp 𝕄)) := by
  rw [BI.bigSep_emp_const]
  iintro Hu; imodintro
  isplitl [Hu]
  · iapply (show (ownU u₀ : sProp 𝕄)
        ⊢ BI.own (emb₁ u₀) from .rfl)
    iexact Hu
  iempintro

/-- The conditional frame at the regions' records over the outputs solved in order. -/
theorem frame (ρ : Dev nD → PrngReg) :
    θ_run defs (onTc (τ := τ) (main (F := F))) ⟨m, fun _ => 0, ρ⟩ (fun r => ∀ c : Dev nD, Kept m r.2.mem c main_arg0 args) :=
  Gen.frame_cond (F := F) m emb₁ () 𝒱₀ L lv (fun _ _ => rfl) ρ (outsD m) (pdats m (outsD m)) (O₀ := 0) (hu₀ := hu₀)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m (outsD m) (solves m)) (hpre0 := fun c => .rfl) (hpost0 := fun c => .rfl)
    (R1 := reg1 m (outsD m) (solves m)) (hpre1 := fun c => .rfl) (hpost1 := fun c => .rfl)
    (R2 := reg2 m (outsD m) (solves m)) (hpre2 := fun c => .rfl) (hpost2 := fun c => .rfl)

end Cert.Kernel.SegSum

end
-- ==== Proof.KIBody0.lean ====
import proofs.«430351_j36395552866780_1_alg».proof.Proof.Gen.KernelIdeal.Launch
import proofs.«430351_j36395552866780_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.SegSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

theorem cond_of_zero (n : ℕ) (h : n = 0) :
    Scalar.cmpi .ne (Scalar.extui (Scalar.cmpi .eq (BitVec.ofNat 32 n) 0#32)) 0#32 = 1#1 := by
  subst h; decide

theorem not_cond_of_ne (n : ℕ) (hn : n < 625) (h : n ≠ 0) :
    ¬ Scalar.cmpi .ne (Scalar.extui (Scalar.cmpi .eq (BitVec.ofNat 32 n) 0#32)) 0#32 = 1#1 := by
  have h0 : Scalar.cmpi .eq (BitVec.ofNat 32 n) 0#32 = 0#1 :=
    (BitVec.eq_zero_or_eq_one _).resolve_right fun h1 => h (by
      have := congrArg BitVec.toNat (IntOp.cmpi_eq.mp h1)
      simp only [BitVec.toNat_ofNat] at this
      omega)
  rw [h0]; decide

theorem hz2 : (![0, 0] : Fin 2 → ℕ) = fun _ => 0 := by
  funext a; fin_cases a <;> rfl

theorem read_writes_whole_cons {Val : EltTy → Type} [∀ e, Nonempty (Val e)] {sg : RefSig} {κ : Kind} {sp : Space} {S : Shape} {e : EltTy}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨⟨Rect.unit off S.size inb, w⟩, List.mem_cons_self, View.mem_set_unit_zero h inb y⟩).trans (View.canon_cons_unit_zero h inb w L)

theorem readAt_whole_unread {Val : EltTy → Type} {sg : RefSig} {κ : Kind} {sp : Space} {S : Shape} {e : EltTy}
    (m : Memref sg κ sp S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X :=
  (View.readAt_eq_ld m.view (hm.unread X) (Rect.unit off S.size inb)).trans
    ((congrArg (fun Y => View.ld Y (Rect.unit off S.size inb)) (hm.read_unread X)).trans (View.ld_unit_zero h inb X))

/-- A row's first chunk: the sum starts from zero. -/
theorem sound_first0 (c : Dev nD) (E : Set ℕ) (i : grid0.Coords) (hi : (i 1).val = 0)
    (arg2 : Memref sig .tc .vmem S8000x8 .f32) (harg2 : arg2.IsWhole) (arg3 : Memref sig .tc .vmem S8000x1 .i32) (harg3 : arg3.IsWhole)
    (arg4 : Memref sig .tc .vmem S2000x8 .f32) (harg4 : arg4.IsWhole) (arg5 : Memref sig .tc .vmem S2000x8 .f32) (harg5 : arg5.IsWhole)
    (g : Vec F S8000x8 .f32) (d : Vec F S8000x1 .i32) (K : PUnit → sProp 𝕄) :
    iprop(owns c arg2 fullShare g ∗ owns c arg3 fullShare d
        ∗ (∃ o, owns c arg4 fullShare o) ∗ (∃ s, owns c arg5 fullShare s)
        ∗ (iprop(owns c arg2 fullShare g ∗ owns c arg3 fullShare d
              ∗ owns c arg4 fullShare (k0_pay2 i d g (k0_pay1 (F := F)))
              ∗ owns c arg5 fullShare (k0_pay2 i d g (k0_pay1 (F := F)))) -∗ K ⟨⟩))
      ⊢ wp frame (wpE (defs₀ (F := F)) Variants.none c none) E (cc0__segsum_kernel i arg2 harg2 arg3 harg3 arg4 harg4 arg5 harg5) K := by
  simp only [cc0__segsum_kernel_eq_skeleton]; unfold cc0__segsum_kernel_skel owns
  iintro ⟨⟨%f2, %hf2, H2⟩, ⟨%f3, %hf3, H3⟩, ⟨%o4, %f4, -, H4⟩, ⟨%s5, %f5, -, H5⟩, Hk⟩
  obtain rfl := harg2.eq_unread hf2; obtain rfl := harg3.eq_unread hf3
  have hc := cond_of_zero _ hi
  sl_exec (disch := first | exact hc)
  sl_step
  iapply Hk
  isplitl [H2]
  · iexists _; isplitr; · ipureintro; exact hf2
    iexact H2
  isplitl [H3]
  · iexists _; isplitr; · ipureintro; exact hf3
    iexact H3
  isplitl [H4] <;>
  · iexists _; isplitr
    swap; · iassumption
    ipureintro; sl_unfold_words
    rw [read_writes_whole_cons _ _ hz2]; repeat rw [View.readCov_cons_toLoadRect]
    rw [readAt_whole_unread arg3 harg3 hz2, readAt_whole_unread arg2 harg2 hz2]

/-- Any later chunk: the sum goes on from what the accumulator holds. -/
theorem sound_rest0 (c : Dev nD) (E : Set ℕ) (i : grid0.Coords) (hi : (i 1).val ≠ 0)
    (arg2 : Memref sig .tc .vmem S8000x8 .f32) (harg2 : arg2.IsWhole) (arg3 : Memref sig .tc .vmem S8000x1 .i32) (harg3 : arg3.IsWhole)
    (arg4 : Memref sig .tc .vmem S2000x8 .f32) (harg4 : arg4.IsWhole) (arg5 : Memref sig .tc .vmem S2000x8 .f32) (harg5 : arg5.IsWhole)
    (g : Vec F S8000x8 .f32) (d : Vec F S8000x1 .i32) (s : Vec F S2000x8 .f32) (K : PUnit → sProp 𝕄) :
    iprop(owns c arg2 fullShare g ∗ owns c arg3 fullShare d
        ∗ (∃ o, owns c arg4 fullShare o) ∗ owns c arg5 fullShare s
        ∗ (iprop(owns c arg2 fullShare g ∗ owns c arg3 fullShare d
              ∗ owns c arg4 fullShare (k0_pay2 i d g s)
              ∗ owns c arg5 fullShare (k0_pay2 i d g s)) -∗ K ⟨⟩))
      ⊢ wp frame (wpE (defs₀ (F := F)) Variants.none c none) E (cc0__segsum_kernel i arg2 harg2 arg3 harg3 arg4 harg4 arg5 harg5) K := by
  simp only [cc0__segsum_kernel_eq_skeleton]; unfold cc0__segsum_kernel_skel owns
  iintro ⟨⟨%f2, %hf2, H2⟩, ⟨%f3, %hf3, H3⟩, ⟨%o4, %f4, -, H4⟩, ⟨%f5, %hf5, H5⟩, Hk⟩
  obtain rfl := harg2.eq_unread hf2; obtain rfl := harg3.eq_unread hf3; obtain rfl := harg5.eq_unread hf5
  have hc := not_cond_of_ne _ (i 1).isLt hi
  sl_exec (disch := first | exact hc)
  sl_step
  iapply Hk
  isplitl [H2]
  · iexists _; isplitr; · ipureintro; exact hf2
    iexact H2
  isplitl [H3]
  · iexists _; isplitr; · ipureintro; exact hf3
    iexact H3
  isplitl [H4] <;>
  · iexists _; isplitr
    swap; · iassumption
    ipureintro; sl_unfold_words
    rw [read_writes_whole_cons _ _ hz2]; repeat rw [View.readCov_cons_toLoadRect]
    rw [readAt_whole_unread arg3 harg3 hz2, readAt_whole_unread arg2 harg2 hz2, readAt_whole_unread arg5 harg5 hz2]

end Cert.KernelIdeal.SegSum

end
-- ==== Proof.KIData0.lean ====
import proofs.«430351_j36395552866780_1_alg».proof.Proof.KIBody0
import Idealize.ShloMosaic.Lib.Pipeline.RegionsLoop

noncomputable section

namespace Cert.KernelIdeal.SegSum

open Idealize.ShloMosaic Idealize.ShloMosaic.TcCoe Idealize.SL.RA Idealize.SL.BI Idealize.SL.BI.BIBase
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)

theorem coords0_1 : ((grid0.coords t) 1).val = t.val % 625 :=
  congrArg (· % 625) (Nat.div_one _)

theorem coords0_0 : ((grid0.coords t) 0).val = t.val / 625 :=
  Nat.mod_eq_of_lt (Nat.div_lt_of_lt_mul (lt_of_lt_of_eq t.isLt N_0))

abbrev gblk0 : Vec F S8000x8 .f32 := ((cfg0.win 0).blk t).view.read (Elt F) (V c (Pipeline.arrRef spec0 0))
abbrev dblk0 : Vec F S8000x1 .i32 := ((cfg0.win 1).blk t).view.read (Elt F) (V c (Pipeline.arrRef spec0 1))

def step0 (acc : Vec F S2000x8 .f32) : Vec F S2000x8 .f32 :=
  k0_pay2 (grid0.coords t) (dblk0 V c t) (gblk0 V c t) acc

-- The running sum after point `n`: each row of 625 points restarts from zero.
def accAt0 : (n : ℕ) → n < cfg0.N → Vec F S2000x8 .f32
  | 0, hn => step0 V c ⟨0, hn⟩ k0_pay1
  | n + 1, hn => step0 V c ⟨n + 1, hn⟩ (if (n + 1) % 625 = 0 then k0_pay1 else accAt0 n (by omega))

theorem accAt0_first (h : t.val % 625 = 0) :
    accAt0 V c t.val t.isLt = step0 V c t k0_pay1 := by
  obtain ⟨_ | n, hn⟩ := t
  exacts [rfl, congrArg _ (if_pos h)]

theorem accAt0_rest (h : ¬ t.val % 625 = 0) :
    accAt0 V c t.val t.isLt = step0 V c t (accAt0 V c (t.val - 1) (by omega)) := by
  obtain ⟨_ | n, hn⟩ := t
  exacts [absurd (Nat.zero_mod _) h, congrArg _ (if_neg h)]

abbrev scM0 := Memref.whole cc0_scratch0

abbrev inv0 (P : sProp 𝕄) : sProp 𝕄 :=
  iprop(iprop(P ∗ (Pipeline.scopedRestBut spec0 c [cc0_scratch0] : sProp 𝕄)) ∗ (∃ r, prngReg c r))

theorem PhiA0_eq : (Pipeline.ΦA spec0 c : sProp 𝕄) = inv0 c iprop(∃ d, owns c scM0 fullShare d) := by
  unfold Pipeline.ΦA
  rw [Pipeline.scopedRest_split_of_list spec0 c [cc0_scratch0] (by decide) (by decide)]
  simp only [scM0, owns_whole]; rfl

def dat0 : Pipeline.Dat τ (Elt F) Unit ℕ (UR sig nD τ) ℕ cfg0 c where
  A w := V c (Pipeline.arrRef spec0 w)
  after w t := match w with
    | ⟨0, _⟩ => gblk0 V c t
    | ⟨1, _⟩ => dblk0 V c t
    | ⟨2, _⟩ => accAt0 V c t.val t.isLt
  Φ
    | ⟨0, _⟩ => Pipeline.ΦA spec0 c
    | ⟨n + 1, h⟩ => inv0 c (owns c scM0 fullShare (accAt0 V c n (by omega)))
  q _ := fullShare
  owed _ := 0

theorem after0_2 : (dat0 V c).after 2 t = accAt0 V c t.val t.isLt := rfl

-- Whatever the accumulator holds, it holds something.
theorem inv0_forget (t : Fin (cfg0.N + 1)) : (dat0 V c).Φ t ⊢ inv0 c iprop(∃ d, owns c scM0 fullShare d) := by
  obtain ⟨_ | n, h⟩ := t
  exacts [Entails.of_eq (PhiA0_eq c), sep_mono_l (sep_mono_l (Laws.exists_intro (PROP := sProp 𝕄) _))]

-- Past a row's first point the accumulator holds the sum up to the point before.
theorem inv0_rest (h : ¬ t.val % 625 = 0) :
    (dat0 V c).Φ t.castSucc ⊢ inv0 c (owns c scM0 fullShare (accAt0 V c (t.val - 1) (by omega))) := by
  obtain ⟨_ | n, hn⟩ := t
  exacts [absurd (Nat.zero_mod _) h, .rfl]

-- Each point adds its chunk's one-hot product: to zero at a row's first point, to the running sum elsewhere.
theorem body_obligation0 : Pipeline.BodyObligation (dat0 V c) defs₀ Variants.none () Set.univ := fun t => by
  rw [bigSep_W0, bigSep_W0, after0_2, show (dat0 V c).after 0 t = gblk0 V c t from rfl, show (dat0 V c).after 1 t = dblk0 V c t from rfl,
    show (dat0 V c).Φ t.succ = inv0 c (owns c scM0 fullShare (accAt0 V c t.val t.isLt)) from rfl]
  unfold inv0
  sl_whnfR [defs₀, Defs.onTc]
  iintro ⟨HΦ, Ho, ⟨%d0, H0⟩, ⟨%d1, H1⟩, ⟨%d2, H2⟩⟩
  rw [show _ = gblk0 V c t from (dat0 V c).before_in_eq_fetched 0 rfl (fun _ => rfl) (fun _ _ _ => rfl) (fun _ => rfl) t d0,
    show _ = dblk0 V c t from (dat0 V c).before_in_eq_fetched 1 rfl (fun _ => rfl) (fun _ _ _ => rfl) (fun _ => rfl) t d1]
  by_cases h0 : t.val % 625 = 0
  case' pos =>
    rw [accAt0_first V c t h0, step0]
    icases (inv0_forget V c _) $$ HΦ with ⟨⟨HS, Hr⟩, Hg⟩
    iapply (sound_first0 c Set.univ (grid0.coords t) ((coords0_1 t).trans h0) _ _ _ _ _ _ _ _ _ _ _)
  case' neg =>
    rw [accAt0_rest V c t h0, step0]
    icases (inv0_rest V c t h0) $$ HΦ with ⟨⟨HS, Hr⟩, Hg⟩
    iapply (sound_rest0 c Set.univ (grid0.coords t) (fun h => h0 ((coords0_1 t).symm.trans h)) _ _ _ _ _ _ _ _ _ _ _ _)
  all_goals
    iframe H0 H1 HS
    isplitl [H2]; · iexists _; iexact H2
    iintro ⟨H0, H1, H2, HS⟩; iframe; iexact Ho

theorem hin0 : (Pipeline.ΦA spec0 c : sProp 𝕄) ⊢ (dat0 V c).Φ 0 := .rfl

theorem hout0 : (dat0 V c).Φ (Fin.last cfg0.N) ⊢ (Pipeline.ΦA spec0 c : sProp 𝕄) := by
  rw [PhiA0_eq]; exact inv0_forget V c _

end Cert.KernelIdeal.SegSum

end
-- ==== Proof.KIBody1.lean ====
import proofs.«430351_j36395552866780_1_alg».proof.Proof.Gen.KernelIdeal.Launch
import proofs.«430351_j36395552866780_1_alg».proof.Proof.Gen.KernelIdeal.Skeleton
import proofs.«430351_j36395552866780_1_alg».proof.Proof.KIBody0
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.SegSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

/-- A row's first chunk: the sum starts from zero. -/
theorem sound_first1 (c : Dev nD) (E : Set ℕ) (i : grid1.Coords) (hi : (i 1).val = 0)
    (arg2 : Memref sig .tc .vmem S8000x16 .f32) (harg2 : arg2.IsWhole) (arg3 : Memref sig .tc .vmem S8000x1 .i32) (harg3 : arg3.IsWhole)
    (arg4 : Memref sig .tc .vmem S2000x16 .f32) (harg4 : arg4.IsWhole) (arg5 : Memref sig .tc .vmem S2000x16 .f32) (harg5 : arg5.IsWhole)
    (g : Vec F S8000x16 .f32) (d : Vec F S8000x1 .i32) (K : PUnit → sProp 𝕄) :
    iprop(owns c arg2 fullShare g ∗ owns c arg3 fullShare d
        ∗ (∃ o, owns c arg4 fullShare o) ∗ (∃ s, owns c arg5 fullShare s)
        ∗ (iprop(owns c arg2 fullShare g ∗ owns c arg3 fullShare d
              ∗ owns c arg4 fullShare (k1_pay2 i d g (k1_pay1 (F := F)))
              ∗ owns c arg5 fullShare (k1_pay2 i d g (k1_pay1 (F := F)))) -∗ K ⟨⟩))
      ⊢ wp frame (wpE (defs₀ (F := F)) Variants.none c none) E (cc1__segsum_kernel i arg2 harg2 arg3 harg3 arg4 harg4 arg5 harg5) K := by
  simp only [cc1__segsum_kernel_eq_skeleton]; unfold cc1__segsum_kernel_skel owns
  iintro ⟨⟨%f2, %hf2, H2⟩, ⟨%f3, %hf3, H3⟩, ⟨%o4, %f4, -, H4⟩, ⟨%s5, %f5, -, H5⟩, Hk⟩
  obtain rfl := harg2.eq_unread hf2; obtain rfl := harg3.eq_unread hf3
  have hc := cond_of_zero _ hi
  sl_exec (disch := first | exact hc)
  sl_step
  iapply Hk
  isplitl [H2]
  · iexists _; isplitr; · ipureintro; exact hf2
    iexact H2
  isplitl [H3]
  · iexists _; isplitr; · ipureintro; exact hf3
    iexact H3
  isplitl [H4] <;>
  · iexists _; isplitr
    swap; · iassumption
    ipureintro; sl_unfold_words
    rw [read_writes_whole_cons _ _ hz2]; repeat rw [View.readCov_cons_toLoadRect]
    rw [readAt_whole_unread arg3 harg3 hz2, readAt_whole_unread arg2 harg2 hz2]

/-- Any later chunk: the sum goes on from what the accumulator holds. -/
theorem sound_rest1 (c : Dev nD) (E : Set ℕ) (i : grid1.Coords) (hi : (i 1).val ≠ 0)
    (arg2 : Memref sig .tc .vmem S8000x16 .f32) (harg2 : arg2.IsWhole) (arg3 : Memref sig .tc .vmem S8000x1 .i32) (harg3 : arg3.IsWhole)
    (arg4 : Memref sig .tc .vmem S2000x16 .f32) (harg4 : arg4.IsWhole) (arg5 : Memref sig .tc .vmem S2000x16 .f32) (harg5 : arg5.IsWhole)
    (g : Vec F S8000x16 .f32) (d : Vec F S8000x1 .i32) (s : Vec F S2000x16 .f32) (K : PUnit → sProp 𝕄) :
    iprop(owns c arg2 fullShare g ∗ owns c arg3 fullShare d
        ∗ (∃ o, owns c arg4 fullShare o) ∗ owns c arg5 fullShare s
        ∗ (iprop(owns c arg2 fullShare g ∗ owns c arg3 fullShare d
              ∗ owns c arg4 fullShare (k1_pay2 i d g s)
              ∗ owns c arg5 fullShare (k1_pay2 i d g s)) -∗ K ⟨⟩))
      ⊢ wp frame (wpE (defs₀ (F := F)) Variants.none c none) E (cc1__segsum_kernel i arg2 harg2 arg3 harg3 arg4 harg4 arg5 harg5) K := by
  simp only [cc1__segsum_kernel_eq_skeleton]; unfold cc1__segsum_kernel_skel owns
  iintro ⟨⟨%f2, %hf2, H2⟩, ⟨%f3, %hf3, H3⟩, ⟨%o4, %f4, -, H4⟩, ⟨%f5, %hf5, H5⟩, Hk⟩
  obtain rfl := harg2.eq_unread hf2; obtain rfl := harg3.eq_unread hf3; obtain rfl := harg5.eq_unread hf5
  have hc := not_cond_of_ne _ (i 1).isLt hi
  sl_exec (disch := first | exact hc)
  sl_step
  iapply Hk
  isplitl [H2]
  · iexists _; isplitr; · ipureintro; exact hf2
    iexact H2
  isplitl [H3]
  · iexists _; isplitr; · ipureintro; exact hf3
    iexact H3
  isplitl [H4] <;>
  · iexists _; isplitr
    swap; · iassumption
    ipureintro; sl_unfold_words
    rw [read_writes_whole_cons _ _ hz2]; repeat rw [View.readCov_cons_toLoadRect]
    rw [readAt_whole_unread arg3 harg3 hz2, readAt_whole_unread arg2 harg2 hz2, readAt_whole_unread arg5 harg5 hz2]

end Cert.KernelIdeal.SegSum

end
-- ==== Proof.KIData1.lean ====
import proofs.«430351_j36395552866780_1_alg».proof.Proof.KIBody1
import Idealize.ShloMosaic.Lib.Pipeline.RegionsLoop

noncomputable section

namespace Cert.KernelIdeal.SegSum

open Idealize.ShloMosaic Idealize.ShloMosaic.TcCoe Idealize.SL.RA Idealize.SL.BI Idealize.SL.BI.BIBase
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg1.N)

theorem coords1_1 : ((grid1.coords t) 1).val = t.val % 625 :=
  congrArg (· % 625) (Nat.div_one _)

theorem coords1_0 : ((grid1.coords t) 0).val = t.val / 625 :=
  Nat.mod_eq_of_lt (Nat.div_lt_of_lt_mul (lt_of_lt_of_eq t.isLt N_1))

abbrev gblk1 : Vec F S8000x16 .f32 := ((cfg1.win 0).blk t).view.read (Elt F) (V c (Pipeline.arrRef spec1 0))
abbrev dblk1 : Vec F S8000x1 .i32 := ((cfg1.win 1).blk t).view.read (Elt F) (V c (Pipeline.arrRef spec1 1))

def step1 (acc : Vec F S2000x16 .f32) : Vec F S2000x16 .f32 :=
  k1_pay2 (grid1.coords t) (dblk1 V c t) (gblk1 V c t) acc

-- The running sum after point `n`: each row of 625 points restarts from zero.
def accAt1 : (n : ℕ) → n < cfg1.N → Vec F S2000x16 .f32
  | 0, hn => step1 V c ⟨0, hn⟩ k1_pay1
  | n + 1, hn => step1 V c ⟨n + 1, hn⟩ (if (n + 1) % 625 = 0 then k1_pay1 else accAt1 n (by omega))

theorem accAt1_first (h : t.val % 625 = 0) :
    accAt1 V c t.val t.isLt = step1 V c t k1_pay1 := by
  obtain ⟨_ | n, hn⟩ := t
  exacts [rfl, congrArg _ (if_pos h)]

theorem accAt1_rest (h : ¬ t.val % 625 = 0) :
    accAt1 V c t.val t.isLt = step1 V c t (accAt1 V c (t.val - 1) (by omega)) := by
  obtain ⟨_ | n, hn⟩ := t
  exacts [absurd (Nat.zero_mod _) h, congrArg _ (if_neg h)]

abbrev scM1 := Memref.whole cc1_scratch0

abbrev inv1 (P : sProp 𝕄) : sProp 𝕄 :=
  iprop(iprop(P ∗ (Pipeline.scopedRestBut spec1 c [cc1_scratch0] : sProp 𝕄)) ∗ (∃ r, prngReg c r))

theorem PhiA1_eq : (Pipeline.ΦA spec1 c : sProp 𝕄) = inv1 c iprop(∃ d, owns c scM1 fullShare d) := by
  unfold Pipeline.ΦA
  rw [Pipeline.scopedRest_split_of_list spec1 c [cc1_scratch0] (by decide) (by decide)]
  simp only [scM1, owns_whole]; rfl

def dat1 : Pipeline.Dat τ (Elt F) Unit ℕ (UR sig nD τ) ℕ cfg1 c where
  A w := V c (Pipeline.arrRef spec1 w)
  after w t := match w with
    | ⟨0, _⟩ => gblk1 V c t
    | ⟨1, _⟩ => dblk1 V c t
    | ⟨2, _⟩ => accAt1 V c t.val t.isLt
  Φ
    | ⟨0, _⟩ => Pipeline.ΦA spec1 c
    | ⟨n + 1, h⟩ => inv1 c (owns c scM1 fullShare (accAt1 V c n (by omega)))
  q _ := fullShare
  owed _ := 0

theorem after1_2 : (dat1 V c).after 2 t = accAt1 V c t.val t.isLt := rfl

-- Whatever the accumulator holds, it holds something.
theorem inv1_forget (t : Fin (cfg1.N + 1)) : (dat1 V c).Φ t ⊢ inv1 c iprop(∃ d, owns c scM1 fullShare d) := by
  obtain ⟨_ | n, h⟩ := t
  exacts [Entails.of_eq (PhiA1_eq c), sep_mono_l (sep_mono_l (Laws.exists_intro (PROP := sProp 𝕄) _))]

-- Past a row's first point the accumulator holds the sum up to the point before.
theorem inv1_rest (h : ¬ t.val % 625 = 0) :
    (dat1 V c).Φ t.castSucc ⊢ inv1 c (owns c scM1 fullShare (accAt1 V c (t.val - 1) (by omega))) := by
  obtain ⟨_ | n, hn⟩ := t
  exacts [absurd (Nat.zero_mod _) h, .rfl]

-- Each point adds its chunk's one-hot product: to zero at a row's first point, to the running sum elsewhere.
theorem body_obligation1 : Pipeline.BodyObligation (dat1 V c) defs₀ Variants.none () Set.univ := fun t => by
  rw [bigSep_W1, bigSep_W1, after1_2, show (dat1 V c).after 0 t = gblk1 V c t from rfl, show (dat1 V c).after 1 t = dblk1 V c t from rfl,
    show (dat1 V c).Φ t.succ = inv1 c (owns c scM1 fullShare (accAt1 V c t.val t.isLt)) from rfl]
  unfold inv1
  sl_whnfR [defs₀, Defs.onTc]
  iintro ⟨HΦ, Ho, ⟨%d0, H0⟩, ⟨%d1, H1⟩, ⟨%d2, H2⟩⟩
  rw [show _ = gblk1 V c t from (dat1 V c).before_in_eq_fetched 0 rfl (fun _ => rfl) (fun _ _ _ => rfl) (fun _ => rfl) t d0,
    show _ = dblk1 V c t from (dat1 V c).before_in_eq_fetched 1 rfl (fun _ => rfl) (fun _ _ _ => rfl) (fun _ => rfl) t d1]
  by_cases h0 : t.val % 625 = 0
  case' pos =>
    rw [accAt1_first V c t h0, step1]
    icases (inv1_forget V c _) $$ HΦ with ⟨⟨HS, Hr⟩, Hg⟩
    iapply (sound_first1 c Set.univ (grid1.coords t) ((coords1_1 t).trans h0) _ _ _ _ _ _ _ _ _ _ _)
  case' neg =>
    rw [accAt1_rest V c t h0, step1]
    icases (inv1_rest V c t h0) $$ HΦ with ⟨⟨HS, Hr⟩, Hg⟩
    iapply (sound_rest1 c Set.univ (grid1.coords t) (fun h => h0 ((coords1_1 t).symm.trans h)) _ _ _ _ _ _ _ _ _ _ _ _)
  all_goals
    iframe H0 H1 HS
    isplitl [H2]; · iexists _; iexact H2
    iintro ⟨H0, H1, H2, HS⟩; iframe; iexact Ho

theorem hin1 : (Pipeline.ΦA spec1 c : sProp 𝕄) ⊢ (dat1 V c).Φ 0 := .rfl

theorem hout1 : (dat1 V c).Φ (Fin.last cfg1.N) ⊢ (Pipeline.ΦA spec1 c : sProp 𝕄) := by
  rw [PhiA1_eq]; exact inv1_forget V c _

end Cert.KernelIdeal.SegSum

end
-- ==== Proof.KIBody2.lean ====
import proofs.«430351_j36395552866780_1_alg».proof.Proof.KIBody1

noncomputable section

namespace Cert.KernelIdeal.SegSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

/-- Regions 1 and 2 run the same kernel body at the same shapes: region 2's two facts are region 1's, by unfolding. -/
theorem sound_first2 (c : Dev nD) (E : Set ℕ) (i : grid2.Coords) (hi : (i 1).val = 0)
    (arg2 : Memref sig .tc .vmem S8000x16 .f32) (harg2 : arg2.IsWhole) (arg3 : Memref sig .tc .vmem S8000x1 .i32) (harg3 : arg3.IsWhole)
    (arg4 : Memref sig .tc .vmem S2000x16 .f32) (harg4 : arg4.IsWhole) (arg5 : Memref sig .tc .vmem S2000x16 .f32) (harg5 : arg5.IsWhole)
    (g : Vec F S8000x16 .f32) (d : Vec F S8000x1 .i32) (K : PUnit → sProp 𝕄) :
    iprop(owns c arg2 fullShare g ∗ owns c arg3 fullShare d
        ∗ (∃ o, owns c arg4 fullShare o) ∗ (∃ s, owns c arg5 fullShare s)
        ∗ (iprop(owns c arg2 fullShare g ∗ owns c arg3 fullShare d
              ∗ owns c arg4 fullShare (k2_pay2 i d g (k2_pay1 (F := F)))
              ∗ owns c arg5 fullShare (k2_pay2 i d g (k2_pay1 (F := F)))) -∗ K ⟨⟩))
      ⊢ wp frame (wpE (defs₀ (F := F)) Variants.none c none) E (cc2__segsum_kernel i arg2 harg2 arg3 harg3 arg4 harg4 arg5 harg5) K :=
  sound_first1 c E i hi arg2 harg2 arg3 harg3 arg4 harg4 arg5 harg5 g d K

theorem sound_rest2 (c : Dev nD) (E : Set ℕ) (i : grid2.Coords) (hi : (i 1).val ≠ 0)
    (arg2 : Memref sig .tc .vmem S8000x16 .f32) (harg2 : arg2.IsWhole) (arg3 : Memref sig .tc .vmem S8000x1 .i32) (harg3 : arg3.IsWhole)
    (arg4 : Memref sig .tc .vmem S2000x16 .f32) (harg4 : arg4.IsWhole) (arg5 : Memref sig .tc .vmem S2000x16 .f32) (harg5 : arg5.IsWhole)
    (g : Vec F S8000x16 .f32) (d : Vec F S8000x1 .i32) (s : Vec F S2000x16 .f32) (K : PUnit → sProp 𝕄) :
    iprop(owns c arg2 fullShare g ∗ owns c arg3 fullShare d
        ∗ (∃ o, owns c arg4 fullShare o) ∗ owns c arg5 fullShare s
        ∗ (iprop(owns c arg2 fullShare g ∗ owns c arg3 fullShare d
              ∗ owns c arg4 fullShare (k2_pay2 i d g s)
              ∗ owns c arg5 fullShare (k2_pay2 i d g s)) -∗ K ⟨⟩))
      ⊢ wp frame (wpE (defs₀ (F := F)) Variants.none c none) E (cc2__segsum_kernel i arg2 harg2 arg3 harg3 arg4 harg4 arg5 harg5) K :=
  sound_rest1 c E i hi arg2 harg2 arg3 harg3 arg4 harg4 arg5 harg5 g d s K

end Cert.KernelIdeal.SegSum

end
-- ==== Proof.KIData2.lean ====
import proofs.«430351_j36395552866780_1_alg».proof.Proof.KIBody2
import Idealize.ShloMosaic.Lib.Pipeline.RegionsLoop

noncomputable section

namespace Cert.KernelIdeal.SegSum

open Idealize.ShloMosaic Idealize.ShloMosaic.TcCoe Idealize.SL.RA Idealize.SL.BI Idealize.SL.BI.BIBase
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg2.N)

theorem coords2_1 : ((grid2.coords t) 1).val = t.val % 625 :=
  congrArg (· % 625) (Nat.div_one _)

theorem coords2_0 : ((grid2.coords t) 0).val = t.val / 625 :=
  Nat.mod_eq_of_lt (Nat.div_lt_of_lt_mul (lt_of_lt_of_eq t.isLt N_2))

abbrev gblk2 : Vec F S8000x16 .f32 := ((cfg2.win 0).blk t).view.read (Elt F) (V c (Pipeline.arrRef spec2 0))
abbrev dblk2 : Vec F S8000x1 .i32 := ((cfg2.win 1).blk t).view.read (Elt F) (V c (Pipeline.arrRef spec2 1))

def step2 (acc : Vec F S2000x16 .f32) : Vec F S2000x16 .f32 :=
  k2_pay2 (grid2.coords t) (dblk2 V c t) (gblk2 V c t) acc

-- The running sum after point `n`: each row of 625 points restarts from zero.
def accAt2 : (n : ℕ) → n < cfg2.N → Vec F S2000x16 .f32
  | 0, hn => step2 V c ⟨0, hn⟩ k2_pay1
  | n + 1, hn => step2 V c ⟨n + 1, hn⟩ (if (n + 1) % 625 = 0 then k2_pay1 else accAt2 n (by omega))

theorem accAt2_first (h : t.val % 625 = 0) :
    accAt2 V c t.val t.isLt = step2 V c t k2_pay1 := by
  obtain ⟨_ | n, hn⟩ := t
  exacts [rfl, congrArg _ (if_pos h)]

theorem accAt2_rest (h : ¬ t.val % 625 = 0) :
    accAt2 V c t.val t.isLt = step2 V c t (accAt2 V c (t.val - 1) (by omega)) := by
  obtain ⟨_ | n, hn⟩ := t
  exacts [absurd (Nat.zero_mod _) h, congrArg _ (if_neg h)]

abbrev scM2 := Memref.whole cc2_scratch0

abbrev inv2 (P : sProp 𝕄) : sProp 𝕄 :=
  iprop(iprop(P ∗ (Pipeline.scopedRestBut spec2 c [cc2_scratch0] : sProp 𝕄)) ∗ (∃ r, prngReg c r))

theorem PhiA2_eq : (Pipeline.ΦA spec2 c : sProp 𝕄) = inv2 c iprop(∃ d, owns c scM2 fullShare d) := by
  unfold Pipeline.ΦA
  rw [Pipeline.scopedRest_split_of_list spec2 c [cc2_scratch0] (by decide) (by decide)]
  simp only [scM2, owns_whole]; rfl

def dat2 : Pipeline.Dat τ (Elt F) Unit ℕ (UR sig nD τ) ℕ cfg2 c where
  A w := V c (Pipeline.arrRef spec2 w)
  after w t := match w with
    | ⟨0, _⟩ => gblk2 V c t
    | ⟨1, _⟩ => dblk2 V c t
    | ⟨2, _⟩ => accAt2 V c t.val t.isLt
  Φ
    | ⟨0, _⟩ => Pipeline.ΦA spec2 c
    | ⟨n + 1, h⟩ => inv2 c (owns c scM2 fullShare (accAt2 V c n (by omega)))
  q _ := fullShare
  owed _ := 0

theorem after2_2 : (dat2 V c).after 2 t = accAt2 V c t.val t.isLt := rfl

-- Whatever the accumulator holds, it holds something.
theorem inv2_forget (t : Fin (cfg2.N + 1)) : (dat2 V c).Φ t ⊢ inv2 c iprop(∃ d, owns c scM2 fullShare d) := by
  obtain ⟨_ | n, h⟩ := t
  exacts [Entails.of_eq (PhiA2_eq c), sep_mono_l (sep_mono_l (Laws.exists_intro (PROP := sProp 𝕄) _))]

-- Past a row's first point the accumulator holds the sum up to the point before.
theorem inv2_rest (h : ¬ t.val % 625 = 0) :
    (dat2 V c).Φ t.castSucc ⊢ inv2 c (owns c scM2 fullShare (accAt2 V c (t.val - 1) (by omega))) := by
  obtain ⟨_ | n, hn⟩ := t
  exacts [absurd (Nat.zero_mod _) h, .rfl]

-- Each point adds its chunk's one-hot product: to zero at a row's first point, to the running sum elsewhere.
theorem body_obligation2 : Pipeline.BodyObligation (dat2 V c) defs₀ Variants.none () Set.univ := fun t => by
  rw [bigSep_W2, bigSep_W2, after2_2, show (dat2 V c).after 0 t = gblk2 V c t from rfl, show (dat2 V c).after 1 t = dblk2 V c t from rfl,
    show (dat2 V c).Φ t.succ = inv2 c (owns c scM2 fullShare (accAt2 V c t.val t.isLt)) from rfl]
  unfold inv2
  sl_whnfR [defs₀, Defs.onTc]
  iintro ⟨HΦ, Ho, ⟨%d0, H0⟩, ⟨%d1, H1⟩, ⟨%d2, H2⟩⟩
  rw [show _ = gblk2 V c t from (dat2 V c).before_in_eq_fetched 0 rfl (fun _ => rfl) (fun _ _ _ => rfl) (fun _ => rfl) t d0,
    show _ = dblk2 V c t from (dat2 V c).before_in_eq_fetched 1 rfl (fun _ => rfl) (fun _ _ _ => rfl) (fun _ => rfl) t d1]
  by_cases h0 : t.val % 625 = 0
  case' pos =>
    rw [accAt2_first V c t h0, step2]
    icases (inv2_forget V c _) $$ HΦ with ⟨⟨HS, Hr⟩, Hg⟩
    iapply (sound_first2 c Set.univ (grid2.coords t) ((coords2_1 t).trans h0) _ _ _ _ _ _ _ _ _ _ _)
  case' neg =>
    rw [accAt2_rest V c t h0, step2]
    icases (inv2_rest V c t h0) $$ HΦ with ⟨⟨HS, Hr⟩, Hg⟩
    iapply (sound_rest2 c Set.univ (grid2.coords t) (fun h => h0 ((coords2_1 t).symm.trans h)) _ _ _ _ _ _ _ _ _ _ _ _)
  all_goals
    iframe H0 H1 HS
    isplitl [H2]; · iexists _; iexact H2
    iintro ⟨H0, H1, H2, HS⟩; iframe; iexact Ho

theorem hin2 : (Pipeline.ΦA spec2 c : sProp 𝕄) ⊢ (dat2 V c).Φ 0 := .rfl

theorem hout2 : (dat2 V c).Φ (Fin.last cfg2.N) ⊢ (Pipeline.ΦA spec2 c : sProp 𝕄) := by
  rw [PhiA2_eq]; exact inv2_forget V c _

end Cert.KernelIdeal.SegSum

end
-- ==== Proof.KIRun.lean ====
import proofs.«430351_j36395552866780_1_alg».proof.Proof.KIData0
import proofs.«430351_j36395552866780_1_alg».proof.Proof.KIData1
import proofs.«430351_j36395552866780_1_alg».proof.Proof.KIData2
import proofs.«430351_j36395552866780_1_alg».proof.Proof.Gen.KernelIdeal.Regions

noncomputable section

namespace Cert.KernelIdeal.SegSum

open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

abbrev RefVal (F : FTy → Type) [FloatOps F] : Type := (c : Dev nD) → (b : Ref sig .tc) → Buf (Elt F) ((c : Thread nD τ).loc b)

abbrev e0 (m : (ℓ : Loc nD τ sig) → Buf (Elt F) ℓ) (outs : Outs (F := F)) : RefVal F := fun c b => Gen.V1 m c b
abbrev e1 (m : (ℓ : Loc nD τ sig) → Buf (Elt F) ℓ) (outs : Outs (F := F)) : RefVal F := fun c b => Gen.V7 m outs c b
abbrev e2 (m : (ℓ : Loc nD τ sig) → Buf (Elt F) ℓ) (outs : Outs (F := F)) : RefVal F := fun c b => Gen.V13 m outs c b

variable (m : (ℓ : Loc nD τ sig) → Buf (Elt F) ℓ) (outs : Outs (F := F))

def Solves : Prop :=
  (∀ c, outs 2 main_v12 c = (dat0 (e0 m outs) c).arrAt 2 cfg0.N)
  ∧ (∀ c, outs 8 main_v57 c = (dat1 (e1 m outs) c).arrAt 2 cfg1.N)
  ∧ (∀ c, outs 14 main_v102 c = (dat2 (e2 m outs) c).arrAt 2 cfg2.N)

def pdats : (p : Fin 3) → (c : Dev nD) → Dat τ (Elt F) Unit ℕ (UR sig nD τ) ℕ (cfgs p) c
  | ⟨0, _⟩ => fun c => dat0 (e0 m outs) c
  | ⟨1, _⟩ => fun c => dat1 (e1 m outs) c
  | ⟨2, _⟩ => fun c => dat2 (e2 m outs) c

abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)

set_option backward.isDefEq.respectTransparency.types false in
def regOf (p : Fin 3) (lf : Pipeline.LaunchFacts (nD := nD) (τ := τ) cfgs p) (Ve Vx : Dev nD → Valuation τ sig (Elt F))
    (hbody : ∀ c, BodyObligation (pdats m outs p c) (defs₀ (F := F)) Variants.none () Set.univ)
    (hD : ∀ c, (∀ w, (pdats m outs p c).A w = Ve c (Pipeline.arrRef (cfgs p).spec w)) ∧ (∀ w, (pdats m outs p c).q w = fullShare)
      ∧ (∀ t, (pdats m outs p c).owed t = 0) ∧ (pdats m outs p c).recorded 0 = Set.univ)
    (hΦ0 : ∀ c, (Pipeline.ΦA (cfgs p).spec c : sProp 𝕄) ⊢ (pdats m outs p c).Φ 0)
    (hΦN : ∀ c, (pdats m outs p c).Φ (Fin.last (cfgs p).N) ⊢ (Pipeline.ΦA (cfgs p).spec c : sProp 𝕄))
    (w₀ : Fin (cfgs p).W) (hio : ∀ w, w ≠ w₀ → ((cfgs p).win w).isOut = false)
    (h₀ : ∀ c, Vx c (Pipeline.arrRef (cfgs p).spec w₀) = (pdats m outs p c).arrAt w₀ (cfgs p).N)
    (hV : ∀ c (b : Ref sig .tc), b ≠ Pipeline.arrRef (cfgs p).spec w₀ → Vx c b = Ve c b) :
    Pipeline.RegionSeg (pcfgs (F := F)) adm (pdats m outs) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p fun c => (hD c).2.2.1
  pre c := iprop(StableHlo.held (c : Thread nD τ) (Pipeline.ucRefs τ sig) (Ve c) ∗ Rr c)
  post c := iprop(StableHlo.held (c : Thread nD τ) (Pipeline.ucRefs τ sig) (Vx c) ∗ Rr c)
  X c := iprop(∃ r, prngReg c r)
  Y c := iprop(∃ r, prngReg c r)
  Z c := Pipeline.unscopedRest (Ix := Unit) (Name := ℕ) (U := UR sig nD τ) (Lvl := ℕ) (cfgs p).spec c fun b => Ve c b
  hentry c := by
    rw [Pipeline.ownSems0_none]
    have hsplit := Pipeline.arrays_of_unscopedBufs (p := p) (pcfgs (F := F)) adm (pdats m outs) lf.win lf.arr_whole c
      ((pdats m outs p c).share_full (hD c).2.1) (fun b => Ve c b) (hD c).1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [(hD c).2.2.1, (hD c).2.2.2]
      icases HO with ⟨%W, HO⟩; iexists W; isplitr; · ipureintro; exact fun _ _ => Or.inl trivial
      iexact HO
    isplitl [Hp]; · iexact Hp
    iexact Hrest
  hin c := by
    refine .trans ?_ (hΦ0 c)
    unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m outs) ((pdats m outs p c).share_full (hD c).2.1)
      (fun b => Ve c b) (fun b => Vx c b) ((pdats m outs p c).arrAt · (cfgs p).N)
      (fun w => by
        by_cases hw : w = w₀
        · subst hw; exact (h₀ c).symm
        · exact ((pdats m outs p c).arrAt_in w (hio w hw) _).trans (((hD c).1 w).trans (hV c _ fun e => hw (lf.win.arr_inj e)).symm))
      fun b hb => hV c b fun e => hb (Finset.mem_image.mpr ⟨w₀, Finset.mem_univ _, e.symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(hD c).2.2.1]
    icases HO with ⟨%W, -, HO⟩; iexists W; iexact HO

def reg0 (hs : Solves m outs) : Pipeline.RegionSeg (pcfgs (F := F)) adm (pdats m outs) () defs₀ 𝒱₀ L lv 0 :=
  regOf m outs 0 launch0 (Gen.V1 m) (Gen.V2 m outs) (body_obligation0 (e0 m outs)) (fun _ => ⟨fun _ => rfl, fun _ => rfl, fun _ => rfl, rfl⟩)
    (hin0 (e0 m outs)) (hout0 (e0 m outs)) 2 (by decide)
    (fun c => (Function.update_self ..).trans (hs.1 c))
    fun c b hb => Gen.V2_of m outs c b fun hm => hb (List.mem_singleton.mp hm)

def reg1 (hs : Solves m outs) : Pipeline.RegionSeg (pcfgs (F := F)) adm (pdats m outs) () defs₀ 𝒱₀ L lv 1 :=
  regOf m outs 1 launch1 (Gen.V7 m outs) (Gen.V8 m outs) (body_obligation1 (e1 m outs)) (fun _ => ⟨fun _ => rfl, fun _ => rfl, fun _ => rfl, rfl⟩)
    (hin1 (e1 m outs)) (hout1 (e1 m outs)) 2 (by decide)
    (fun c => (Function.update_self ..).trans (hs.2.1 c))
    fun c b hb => Gen.V8_of m outs c b fun hm => hb (List.mem_singleton.mp hm)

def reg2 (hs : Solves m outs) : Pipeline.RegionSeg (pcfgs (F := F)) adm (pdats m outs) () defs₀ 𝒱₀ L lv 2 :=
  regOf m outs 2 launch2 (Gen.V13 m outs) (Gen.V14 m outs) (body_obligation2 (e2 m outs)) (fun _ => ⟨fun _ => rfl, fun _ => rfl, fun _ => rfl, rfl⟩)
    (hin2 (e2 m outs)) (hout2 (e2 m outs)) 2 (by decide)
    (fun c => (Function.update_self ..).trans (hs.2.2 c))
    fun c b hb => Gen.V14_of m outs c b fun hm => hb (List.mem_singleton.mp hm)

end Cert.KernelIdeal.SegSum

end
-- ==== Proof.KIFrame.lean ====
import proofs.«430351_j36395552866780_1_alg».proof.Proof.KIRun

noncomputable section

namespace Cert.KernelIdeal.SegSum

open Idealize.ShloMosaic Idealize.ShloMosaic.TcCoe
open Idealize.SL Idealize.SL.BI
open scoped Idealize.SL.BI
open Idealize.SL.BI.BIBase Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem V7_congr (outs outs' : Outs (F := F)) (c : Dev nD) (h2 : outs 2 main_v12 c = outs' 2 main_v12 c) :
    Gen.V7 m outs c = Gen.V7 m outs' c := by
  unfold Gen.V7 Gen.V6 Gen.V5 Gen.V4 Gen.V3 Gen.V2
  rw [h2]

theorem V13_congr (outs outs' : Outs (F := F)) (c : Dev nD) (h2 : outs 2 main_v12 c = outs' 2 main_v12 c)
    (h8 : outs 8 main_v57 c = outs' 8 main_v57 c) :
    Gen.V13 m outs c = Gen.V13 m outs' c := by
  unfold Gen.V13 Gen.V12 Gen.V11 Gen.V10 Gen.V9 Gen.V8
  rw [h8, V7_congr m outs outs' c h2]

def outsA : Outs (F := F) := fun _ r c => Gen.V0 m c r
def o2 (c : Dev nD) : Buf (Elt F) ((c : Thread nD τ).loc main_v12) := (dat0 (e0 m (outsA m)) c).arrAt 2 cfg0.N
def outsB : Outs (F := F) := fun j => Function.update (outsA m j) main_v12 (o2 m)
def o8 (c : Dev nD) : Buf (Elt F) ((c : Thread nD τ).loc main_v57) := (dat1 (e1 m (outsB m)) c).arrAt 2 cfg1.N
def outsC : Outs (F := F) := fun j => Function.update (outsB m j) main_v57 (o8 m)
def o14 (c : Dev nD) : Buf (Elt F) ((c : Thread nD τ).loc main_v102) := (dat2 (e2 m (outsC m)) c).arrAt 2 cfg2.N
def outsD : Outs (F := F) := fun j => Function.update (outsC m j) main_v102 (o14 m)

theorem outsD_2 (c : Dev nD) : outsD m 2 main_v12 c = o2 m c := by
  unfold outsD outsC outsB
  rw [Function.update_of_ne (by decide), Function.update_of_ne (by decide), Function.update_self]
theorem outsC_2 (c : Dev nD) : outsC m 2 main_v12 c = o2 m c := by
  unfold outsC outsB
  rw [Function.update_of_ne (by decide), Function.update_self]
theorem outsB_2 (c : Dev nD) : outsB m 2 main_v12 c = o2 m c := by
  unfold outsB
  rw [Function.update_self]
theorem outsD_8 (c : Dev nD) : outsD m 8 main_v57 c = o8 m c := by
  unfold outsD outsC
  rw [Function.update_of_ne (by decide), Function.update_self]
theorem outsC_8 (c : Dev nD) : outsC m 8 main_v57 c = o8 m c := by
  unfold outsC
  rw [Function.update_self]
theorem outsD_14 (c : Dev nD) : outsD m 14 main_v102 c = o14 m c := by
  unfold outsD
  rw [Function.update_self]

/-- Each region's output is solved before the regions after it write theirs, and those write other arrays. -/
theorem solves : Solves m (outsD m) := by
  refine ⟨fun c => outsD_2 m c, fun c => ?_, fun c => ?_⟩
  · have he : e1 m (outsB m) = e1 m (outsD m) := funext fun c => funext fun b =>
      congrFun (V7_congr m _ _ c ((outsB_2 m c).trans (outsD_2 m c).symm)) (Proc.devRef .tc b)
    rw [outsD_8, o8, he]
  · have he : e2 m (outsC m) = e2 m (outsD m) := funext fun c => funext fun b =>
      congrFun (V13_congr m _ _ c ((outsC_2 m c).trans (outsD_2 m c).symm) ((outsC_8 m c).trans (outsD_8 m c).symm)) (Proc.devRef .tc b)
    rw [outsD_14, o14, he]

/-- The frame's post as one recursion over the argument arrays: it unfolds to the conjunction of their clauses. -/
def Kept (s : (ℓ : Loc nD τ sig) → Buf (Elt F) ℓ) (c : Dev nD) : Ref sig .tc → List (Ref sig .tc) → Prop
  | b, [] => s ((c.tc : Thread nD τ).loc b) = m ((c.tc : Thread nD τ).loc b)
  | b, b' :: bs => s ((c.tc : Thread nD τ).loc b) = m ((c.tc : Thread nD τ).loc b) ∧ Kept s c b' bs

abbrev args : List (Ref sig .tc) := [main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

abbrev u₀ : UR sig nD τ := initOf (Pipeline.cells cfgs cellOf_inj) (Pipeline.launchToks cfgs cellOf_inj)

theorem hu₀ : (ownU u₀ : sProp 𝕄)
    ⊢ |={Set.univ}=> iprop(BI.own (emb₁ u₀) ∗ bigSep Finset.univ fun _ : Dev nD => (BI.emp : sProp 𝕄)) := by
  rw [BI.bigSep_emp_const]
  iintro Hu; imodintro
  isplitl [Hu]
  · iapply (show (ownU u₀ : sProp 𝕄)
        ⊢ BI.own (emb₁ u₀) from .rfl)
    iexact Hu
  iempintro

/-- The conditional frame at the regions' records over the outputs solved in order. -/
theorem frame (ρ : Dev nD → PrngReg) :
    θ_run defs (onTc (τ := τ) (main (F := F))) ⟨m, fun _ => 0, ρ⟩ (fun r => ∀ c : Dev nD, Kept m r.2.mem c main_arg0 args) :=
  Gen.frame_cond (F := F) m emb₁ () 𝒱₀ L lv (fun _ _ => rfl) ρ (outsD m) (pdats m (outsD m)) (O₀ := 0) (hu₀ := hu₀)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m (outsD m) (solves m)) (hpre0 := fun c => .rfl) (hpost0 := fun c => .rfl)
    (R1 := reg1 m (outsD m) (solves m)) (hpre1 := fun c => .rfl) (hpost1 := fun c => .rfl)
    (R2 := reg2 m (outsD m) (solves m)) (hpre2 := fun c => .rfl) (hpost2 := fun c => .rfl)

end Cert.KernelIdeal.SegSum

end
-- ==== Proof.RefOps.lean ====
import proofs.«430351_j36395552866780_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- A column's variance at zero removed degrees of freedom: the mean squared deviation from the column mean, NaN unless the divisor is positive.
abbrev varOps (x : TRef sig ⟨S100000x16, .f32⟩) (n : TRef sig ⟨S_, .i32⟩) (φ : fn_var.Bufs) : List (HloOp τ sig (Elt F)) :=
  [ TRef.nullary φ.cst (constant S_ .f32 0x00000000#32),
    TRef.binary x φ.cst φ.v0 (fun x v => Host.reduceAdd x v reducesTo_S100000x16_S16_d0 h_S_),
    TRef.unary φ.v0 φ.v1 (broadcastInDim S1x16 ![1] bcast_S16_S1x16_1),
    TRef.nullary φ.cst_0 (constant S_ .f32 0x47C35000#32),
    TRef.unary φ.cst_0 φ.v2 (broadcastInDim S1x16 ![] bcast_S_S1x16),
    TRef.binary φ.v1 φ.v2 φ.v3 Host.divf,
    TRef.unary φ.v3 φ.v4 (broadcastInDim S100000x16 ![0, 1] bcast_S1x16_S100000x16_0_1),
    TRef.binary x φ.v4 φ.v5 subf,
    TRef.binary φ.v5 φ.v5 φ.v6 mulf,
    TRef.unary n φ.v7 (sitofp .f32),
    TRef.nullary φ.cst_1 (constant S_ .f32 0x47C35000#32),
    TRef.binary φ.cst_1 φ.v7 φ.v8 subf,
    TRef.nullary φ.cst_2 (constant S_ .f32 0x00000000#32),
    TRef.binary φ.v6 φ.cst_2 φ.v9 (fun x v => Host.reduceAdd x v reducesTo_S100000x16_S16_d0 h_S_),
    TRef.unary φ.v8 φ.v10 (broadcastInDim S16 ![] bcast_S_S16),
    TRef.binary φ.v9 φ.v10 φ.v11 Host.divf,
    TRef.nullary φ.cst_3 (constant S_ .f32 0x00000000#32),
    TRef.binary φ.v8 φ.cst_3 φ.v12 (cmpf .ogt),
    TRef.nullary φ.cst_4 (constant S_ .f32 0x7FC00000#32),
    TRef.unary φ.cst_4 φ.call0.v0 id,
    TRef.unary φ.call0.v0 φ.call0.v1 (broadcastInDim S16 ![] bcast_S_S16),
    TRef.ternary φ.v12 φ.v11 φ.call0.v1 φ.call0.v2 (fun p a b => select (broadcastInDim S16 ![] bcast_S_S16 p) a b) ]

-- A 16-vector as a row, repeated over the 100000 rows.
abbrev rows (b : TRef sig ⟨S16, .f32⟩) (r : TRef sig ⟨S1x16, .f32⟩) (y : TRef sig ⟨S100000x16, .f32⟩) : List (HloOp τ sig (Elt F)) :=
  [ TRef.unary b r (broadcastInDim S1x16 ![1] bcast_S16_S1x16_1),
    TRef.unary r y (broadcastInDim S100000x16 ![0, 1] bcast_S1x16_S100000x16_0_1) ]

-- The two rows of the edge table, the source indices wrapped into range, and the first gather.
abbrev opsPre : List (HloOp τ sig (Elt F)) :=
  [ unary main_arg1 main_v0 (extractStridedSlice S1x5000000 ![0, 0] · slices_S2x5000000_S1x5000000_0_0),
    reshape main_v0 main_v1 rfl shapeCasts_S1x5000000_S5000000,
    unary main_arg1 main_v2 (extractStridedSlice S1x5000000 ![1, 0] · slices_S2x5000000_S1x5000000_1_0),
    reshape main_v2 main_v3 rfl shapeCasts_S1x5000000_S5000000,
    nullary main_c (constantI S_ 32 0#32),
    unary main_c main_v4 (broadcastInDim S5000000 ![] bcast_S_S5000000 ·),
    binary main_v1 main_v4 main_v5 (cmpi .slt · ·),
    nullary main_c_0 (constantI S_ 32 100000#32),
    unary main_c_0 main_v6 (broadcastInDim S5000000 ![] bcast_S_S5000000 ·),
    binary main_v1 main_v6 main_v7 (addi · ·),
    ternary main_v5 main_v7 main_v1 main_v8 (select · · ·),
    unary main_v8 main_v9 (broadcastInDim S5000000x1 ![0] bcast_S5000000_S5000000x1_0 ·),
    binary main_arg0 main_v9 main_v10 (Host.gather gather_S100000x8_S5000000x1_S5000000x8_1_0_n_n_0_1_18 · ·) ]
abbrev opsPre_W : List (Ref sig .tc) := [main_v0, main_v1, main_v2, main_v3, main_c, main_v4, main_v5, main_c_0, main_v6, main_v7, main_v8, main_v9, main_v10]

-- Layer 1: scatter-add of the gathered rows, two linear maps with a leaky rectifier between, the skip map, batch normalisation; then layer 2's gather.
abbrev opsB1 : List (HloOp τ sig (Elt F)) :=
  [ nullary main_cst (constant S_ .f32 0x00000000#32),
    unary main_cst main_v11 (broadcastInDim S100000x8 ![] bcast_S_S100000x8 ·),
    unary main_v3 main_v12 (broadcastInDim S5000000x1 ![0] bcast_S5000000_S5000000x1_0 ·),
    ternary main_v11 main_v12 main_v10 main_v13 (Host.scatterAdd scatter_S100000x8_S5000000x1_S5000000x8_1_0_0_1 · · ·),
    nullary main_cst_1 (constant S_ .f32 0x3F800000#32),
    binary main_cst_1 main_arg2 main_v14 (addf · ·),
    unary main_v14 main_v15 (broadcastInDim S100000x8 ![] bcast_S_S100000x8 ·),
    binary main_v15 main_arg0 main_v16 (mulf · ·),
    binary main_v16 main_v13 main_v17 (addf · ·),
    binary main_v17 main_arg3 main_v18 (Host.dotGeneral dot_S100000x8_S8x16_S100000x16_1_0_0_1_n_n none · ·) ] ++
  rows (.of main_arg4) (.of main_v19) (.of main_v20) ++
  [ binary main_v18 main_v20 main_v21 (addf · ·),
    nullary main_cst_2 (constant S_ .f32 0x3C23D70A#32),
    nullary main_call0_cst (constant S_ .f32 0x00000000#32),
    unary main_call0_cst main_call0_v0 (broadcastInDim S100000x16 ![] bcast_S_S100000x16 ·),
    binary main_v21 main_call0_v0 main_call0_v1 (cmpf .oge · ·),
    unary main_cst_2 main_call0_v2 (id ·),
    unary main_call0_v2 main_call0_v3 (broadcastInDim S100000x16 ![] bcast_S_S100000x16 ·),
    binary main_call0_v3 main_v21 main_call0_v4 (mulf · ·),
    ternary main_call0_v1 main_v21 main_call0_v4 main_v22 (select · · ·),
    binary main_v22 main_arg5 main_v23 (Host.dotGeneral dot_S100000x16_S16x16_S100000x16_1_0_0_1_n_n none · ·) ] ++
  rows (.of main_arg6) (.of main_v24) (.of main_v25) ++
  [ binary main_v23 main_v25 main_v26 (addf · ·),
    binary main_arg0 main_arg7 main_v27 (Host.dotGeneral dot_S100000x8_S8x16_S100000x16_1_0_0_1_n_n none · ·) ] ++
  rows (.of main_arg8) (.of main_v28) (.of main_v29) ++
  [ binary main_v27 main_v29 main_v30 (addf · ·),
    binary main_v26 main_v30 main_v31 (addf · ·),
    nullary main_cst_3 (constant S_ .f32 0x00000000#32),
    binary main_v31 main_cst_3 main_v32 (fun x v => Host.reduceAdd x v reducesTo_S100000x16_S16_d0 h_S_),
    nullary main_cst_4 (constant S_ .f32 0x47C35000#32),
    unary main_cst_4 main_v33 (broadcastInDim S16 ![] bcast_S_S16 ·),
    binary main_v32 main_v33 main_v34 (Host.divf · ·),
    nullary main_c_5 (constantI S_ 32 0#32) ] ++
  varOps (.of main_v31) (.of main_c_5) main_call1 ++
  rows (.of main_v34) (.of main_v36) (.of main_v37) ++
  [ binary main_v31 main_v37 main_v38 (subf · ·),
    nullary main_cst_6 (constant S_ .f32 0x3727C5AC#32),
    unary main_cst_6 main_v39 (broadcastInDim S16 ![] bcast_S_S16 ·),
    binary main_v35 main_v39 main_v40 (addf · ·),
    unary main_v40 main_v41 (Host.rsqrt ·) ] ++
  rows (.of main_v41) (.of main_v42) (.of main_v43) ++
  [ binary main_v38 main_v43 main_v44 (mulf · ·) ] ++
  rows (.of main_arg9) (.of main_v45) (.of main_v46) ++
  [ binary main_v44 main_v46 main_v47 (mulf · ·) ] ++
  rows (.of main_arg10) (.of main_v48) (.of main_v49) ++
  [ binary main_v47 main_v49 main_v50 (addf · ·),
    nullary main_c_7 (constantI S_ 32 0#32),
    unary main_c_7 main_v51 (broadcastInDim S5000000 ![] bcast_S_S5000000 ·),
    binary main_v1 main_v51 main_v52 (cmpi .slt · ·),
    nullary main_c_8 (constantI S_ 32 100000#32),
    unary main_c_8 main_v53 (broadcastInDim S5000000 ![] bcast_S_S5000000 ·),
    binary main_v1 main_v53 main_v54 (addi · ·),
    ternary main_v52 main_v54 main_v1 main_v55 (select · · ·),
    unary main_v55 main_v56 (broadcastInDim S5000000x1 ![0] bcast_S5000000_S5000000x1_0 ·),
    binary main_v50 main_v56 main_v57 (Host.gather gather_S100000x16_S5000000x1_S5000000x16_1_0_n_n_0_1_116 · ·) ]
abbrev opsB1_W : List (Ref sig .tc) := [main_cst, main_v11, main_v12, main_v13, main_cst_1, main_v14, main_v15, main_v16, main_v17, main_v18, main_v19, main_v20, main_v21, main_cst_2, main_call0_cst, main_call0_v0, main_call0_v1, main_call0_v2, main_call0_v3, main_call0_v4, main_v22, main_v23, main_v24, main_v25, main_v26, main_v27, main_v28, main_v29, main_v30, main_v31, main_cst_3, main_v32, main_cst_4, main_v33, main_v34, main_c_5, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v35, main_v36, main_v37, main_v38, main_cst_6, main_v39, main_v40, main_v41, main_v42, main_v43, main_v44, main_v45, main_v46, main_v47, main_v48, main_v49, main_v50, main_c_7, main_v51, main_v52, main_c_8, main_v53, main_v54, main_v55, main_v56, main_v57]

-- Layer 2, the same with a rectifier and 16-wide features; then layer 3's gather.
abbrev opsB2 : List (HloOp τ sig (Elt F)) :=
  [ nullary main_cst_9 (constant S_ .f32 0x00000000#32),
    unary main_cst_9 main_v58 (broadcastInDim S100000x16 ![] bcast_S_S100000x16 ·),
    unary main_v3 main_v59 (broadcastInDim S5000000x1 ![0] bcast_S5000000_S5000000x1_0 ·),
    ternary main_v58 main_v59 main_v57 main_v60 (Host.scatterAdd scatter_S100000x16_S5000000x1_S5000000x16_1_0_0_1 · · ·),
    nullary main_cst_10 (constant S_ .f32 0x3F800000#32),
    binary main_cst_10 main_arg11 main_v61 (addf · ·),
    unary main_v61 main_v62 (broadcastInDim S100000x16 ![] bcast_S_S100000x16 ·),
    binary main_v62 main_v50 main_v63 (mulf · ·),
    binary main_v63 main_v60 main_v64 (addf · ·),
    binary main_v64 main_arg12 main_v65 (Host.dotGeneral dot_S100000x16_S16x16_S100000x16_1_0_0_1_n_n none · ·) ] ++
  rows (.of main_arg13) (.of main_v66) (.of main_v67) ++
  [ binary main_v65 main_v67 main_v68 (addf · ·),
    nullary main_call2_cst (constant S_ .f32 0x00000000#32),
    unary main_call2_cst main_call2_v0 (broadcastInDim S100000x16 ![] bcast_S_S100000x16 ·),
    binary main_v68 main_call2_v0 main_v69 (maximumf · ·),
    binary main_v69 main_arg14 main_v70 (Host.dotGeneral dot_S100000x16_S16x16_S100000x16_1_0_0_1_n_n none · ·) ] ++
  rows (.of main_arg15) (.of main_v71) (.of main_v72) ++
  [ binary main_v70 main_v72 main_v73 (addf · ·),
    binary main_v50 main_arg16 main_v74 (Host.dotGeneral dot_S100000x16_S16x16_S100000x16_1_0_0_1_n_n none · ·) ] ++
  rows (.of main_arg17) (.of main_v75) (.of main_v76) ++
  [ binary main_v74 main_v76 main_v77 (addf · ·),
    binary main_v73 main_v77 main_v78 (addf · ·),
    nullary main_cst_11 (constant S_ .f32 0x00000000#32),
    binary main_v78 main_cst_11 main_v79 (fun x v => Host.reduceAdd x v reducesTo_S100000x16_S16_d0 h_S_),
    nullary main_cst_12 (constant S_ .f32 0x47C35000#32),
    unary main_cst_12 main_v80 (broadcastInDim S16 ![] bcast_S_S16 ·),
    binary main_v79 main_v80 main_v81 (Host.divf · ·),
    nullary main_c_13 (constantI S_ 32 0#32) ] ++
  varOps (.of main_v78) (.of main_c_13) main_call3 ++
  rows (.of main_v81) (.of main_v83) (.of main_v84) ++
  [ binary main_v78 main_v84 main_v85 (subf · ·),
    nullary main_cst_14 (constant S_ .f32 0x3727C5AC#32),
    unary main_cst_14 main_v86 (broadcastInDim S16 ![] bcast_S_S16 ·),
    binary main_v82 main_v86 main_v87 (addf · ·),
    unary main_v87 main_v88 (Host.rsqrt ·) ] ++
  rows (.of main_v88) (.of main_v89) (.of main_v90) ++
  [ binary main_v85 main_v90 main_v91 (mulf · ·) ] ++
  rows (.of main_arg18) (.of main_v92) (.of main_v93) ++
  [ binary main_v91 main_v93 main_v94 (mulf · ·) ] ++
  rows (.of main_arg19) (.of main_v95) (.of main_v96) ++
  [ binary main_v94 main_v96 main_v97 (addf · ·),
    nullary main_c_15 (constantI S_ 32 0#32),
    unary main_c_15 main_v98 (broadcastInDim S5000000 ![] bcast_S_S5000000 ·),
    binary main_v1 main_v98 main_v99 (cmpi .slt · ·),
    nullary main_c_16 (constantI S_ 32 100000#32),
    unary main_c_16 main_v100 (broadcastInDim S5000000 ![] bcast_S_S5000000 ·),
    binary main_v1 main_v100 main_v101 (addi · ·),
    ternary main_v99 main_v101 main_v1 main_v102 (select · · ·),
    unary main_v102 main_v103 (broadcastInDim S5000000x1 ![0] bcast_S5000000_S5000000x1_0 ·),
    binary main_v97 main_v103 main_v104 (Host.gather gather_S100000x16_S5000000x1_S5000000x16_1_0_n_n_0_1_116 · ·) ]
abbrev opsB2_W : List (Ref sig .tc) := [main_cst_9, main_v58, main_v59, main_v60, main_cst_10, main_v61, main_v62, main_v63, main_v64, main_v65, main_v66, main_v67, main_v68, main_call2_cst, main_call2_v0, main_v69, main_v70, main_v71, main_v72, main_v73, main_v74, main_v75, main_v76, main_v77, main_v78, main_cst_11, main_v79, main_cst_12, main_v80, main_v81, main_c_13, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v82, main_v83, main_v84, main_v85, main_cst_14, main_v86, main_v87, main_v88, main_v89, main_v90, main_v91, main_v92, main_v93, main_v94, main_v95, main_v96, main_v97, main_c_15, main_v98, main_v99, main_c_16, main_v100, main_v101, main_v102, main_v103, main_v104]

-- Layer 3, as layer 2, ending in the result.
abbrev opsB3 : List (HloOp τ sig (Elt F)) :=
  [ nullary main_cst_17 (constant S_ .f32 0x00000000#32),
    unary main_cst_17 main_v105 (broadcastInDim S100000x16 ![] bcast_S_S100000x16 ·),
    unary main_v3 main_v106 (broadcastInDim S5000000x1 ![0] bcast_S5000000_S5000000x1_0 ·),
    ternary main_v105 main_v106 main_v104 main_v107 (Host.scatterAdd scatter_S100000x16_S5000000x1_S5000000x16_1_0_0_1 · · ·),
    nullary main_cst_18 (constant S_ .f32 0x3F800000#32),
    binary main_cst_18 main_arg20 main_v108 (addf · ·),
    unary main_v108 main_v109 (broadcastInDim S100000x16 ![] bcast_S_S100000x16 ·),
    binary main_v109 main_v97 main_v110 (mulf · ·),
    binary main_v110 main_v107 main_v111 (addf · ·),
    binary main_v111 main_arg21 main_v112 (Host.dotGeneral dot_S100000x16_S16x16_S100000x16_1_0_0_1_n_n none · ·) ] ++
  rows (.of main_arg22) (.of main_v113) (.of main_v114) ++
  [ binary main_v112 main_v114 main_v115 (addf · ·),
    nullary main_call4_cst (constant S_ .f32 0x00000000#32),
    unary main_call4_cst main_call4_v0 (broadcastInDim S100000x16 ![] bcast_S_S100000x16 ·),
    binary main_v115 main_call4_v0 main_v116 (maximumf · ·),
    binary main_v116 main_arg23 main_v117 (Host.dotGeneral dot_S100000x16_S16x16_S100000x16_1_0_0_1_n_n none · ·) ] ++
  rows (.of main_arg24) (.of main_v118) (.of main_v119) ++
  [ binary main_v117 main_v119 main_v120 (addf · ·),
    binary main_v97 main_arg25 main_v121 (Host.dotGeneral dot_S100000x16_S16x16_S100000x16_1_0_0_1_n_n none · ·) ] ++
  rows (.of main_arg26) (.of main_v122) (.of main_v123) ++
  [ binary main_v121 main_v123 main_v124 (addf · ·),
    binary main_v120 main_v124 main_v125 (addf · ·),
    nullary main_cst_19 (constant S_ .f32 0x00000000#32),
    binary main_v125 main_cst_19 main_v126 (fun x v => Host.reduceAdd x v reducesTo_S100000x16_S16_d0 h_S_),
    nullary main_cst_20 (constant S_ .f32 0x47C35000#32),
    unary main_cst_20 main_v127 (broadcastInDim S16 ![] bcast_S_S16 ·),
    binary main_v126 main_v127 main_v128 (Host.divf · ·),
    nullary main_c_21 (constantI S_ 32 0#32) ] ++
  varOps (.of main_v125) (.of main_c_21) main_call5 ++
  rows (.of main_v128) (.of main_v130) (.of main_v131) ++
  [ binary main_v125 main_v131 main_v132 (subf · ·),
    nullary main_cst_22 (constant S_ .f32 0x3727C5AC#32),
    unary main_cst_22 main_v133 (broadcastInDim S16 ![] bcast_S_S16 ·),
    binary main_v129 main_v133 main_v134 (addf · ·),
    unary main_v134 main_v135 (Host.rsqrt ·) ] ++
  rows (.of main_v135) (.of main_v136) (.of main_v137) ++
  [ binary main_v132 main_v137 main_v138 (mulf · ·) ] ++
  rows (.of main_arg27) (.of main_v139) (.of main_v140) ++
  [ binary main_v138 main_v140 main_v141 (mulf · ·) ] ++
  rows (.of main_arg28) (.of main_v142) (.of main_v143) ++
  [ binary main_v141 main_v143 main_v144 (addf · ·) ]
abbrev opsB3_W : List (Ref sig .tc) := [main_cst_17, main_v105, main_v106, main_v107, main_cst_18, main_v108, main_v109, main_v110, main_v111, main_v112, main_v113, main_v114, main_v115, main_call4_cst, main_call4_v0, main_v116, main_v117, main_v118, main_v119, main_v120, main_v121, main_v122, main_v123, main_v124, main_v125, main_cst_19, main_v126, main_cst_20, main_v127, main_v128, main_c_21, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v129, main_v130, main_v131, main_v132, main_cst_22, main_v133, main_v134, main_v135, main_v136, main_v137, main_v138, main_v139, main_v140, main_v141, main_v142, main_v143, main_v144]

abbrev ops : List (HloOp τ sig (Elt F)) :=
  opsPre ++ (opsB1 ++ (opsB2 ++ opsB3))
abbrev ops_W : List (Ref sig .tc) :=
  opsPre_W ++ (opsB1_W ++ (opsB2_W ++ opsB3_W))

end Cert.ReferenceIdeal.RefRun

end
-- ==== Proof.RefRun.lean ====
import proofs.«430351_j36395552866780_1_alg».proof.Proof.RefOps
import proofs.«430351_j36395552866780_1_alg».proof.Proof.Gen.Pre_finite_inputs
import proofs.«430351_j36395552866780_1_alg».proof.Defs
import Idealize.ShloMosaic.Lib.Pipeline.Frame
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem main_eq (c : Dev nD) : main (F := F) c = seq ops := by
  chain_rfl

theorem after_ops (V : Valuation τ sig (Elt F)) :
    after ops V = after opsB3 (after opsB2 (after opsB1 (after opsPre V))) := by
  simp only [ops, after_append]

theorem ops_sub : (ops : List (HloOp τ sig (Elt F))).Forall fun op => op.bufs ⊆ tcRefs τ sig := by
  simp only [ops, List.forall_append, opsPre, opsB1, opsB2, opsB3, varOps, rows, List.Forall, nullary_bufs_sub, unary_bufs_sub,
    binary_bufs_sub, ternary_bufs_sub, reshape_bufs_sub, and_self]

theorem ops_fresh : ∀ op ∈ (ops : List (HloOp τ sig (Elt F))), op.fresh = ∅ :=
  List.forall_iff_forall_mem.mp (by
    simp only [ops, List.forall_append, opsPre, opsB1, opsB2, opsB3, varOps, rows, List.Forall]; and_intros <;> rfl)

theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

-- Each operation of a literal list writes one buffer, listed in `W`.
macro "block_writes" : tactic =>
  `(tactic| (simp only [opsPre, opsB1, opsB2, opsB3, varOps, rows, List.forall_append, List.Forall]; and_intros <;> exact single_sub_of_mem (by decide)))

theorem opsPre_keep (V : Valuation τ sig (Elt F)) (r : Ref sig .tc) (h : r ∉ opsPre_W) :
    after opsPre V (Proc.devRef .tc r) = V (Proc.devRef .tc r) := after_of_writes_sub opsPre V (by block_writes) h
theorem opsB1_keep (V : Valuation τ sig (Elt F)) (r : Ref sig .tc) (h : r ∉ opsB1_W) :
    after opsB1 V (Proc.devRef .tc r) = V (Proc.devRef .tc r) := after_of_writes_sub opsB1 V (by block_writes) h
theorem opsB2_keep (V : Valuation τ sig (Elt F)) (r : Ref sig .tc) (h : r ∉ opsB2_W) :
    after opsB2 V (Proc.devRef .tc r) = V (Proc.devRef .tc r) := after_of_writes_sub opsB2 V (by block_writes) h
theorem opsB3_keep (V : Valuation τ sig (Elt F)) (r : Ref sig .tc) (h : r ∉ opsB3_W) :
    after opsB3 V (Proc.devRef .tc r) = V (Proc.devRef .tc r) := after_of_writes_sub opsB3 V (by block_writes) h

theorem ops_keep (V : Valuation τ sig (Elt F)) (r : Ref sig .tc) (h : r ∉ ops_W) :
    after ops V (Proc.devRef .tc r) = V (Proc.devRef .tc r) := by
  simp only [ops_W, List.mem_append, not_or] at h
  rw [after_ops, opsB3_keep _ r h.2.2.2, opsB2_keep _ r h.2.2.1, opsB1_keep _ r h.2.1, opsPre_keep _ r h.1]

/-- Every buffer ends at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq (by decide) (by decide) defs main (fun _ => ops) main_eq (fun _ => ops_sub) m ρ fun _ => ops_fresh

/-- No operation writes an argument. -/
theorem frame_ri : Cert.frame_ReferenceIdeal (hReferenceIdeal := Cert.ReferenceIdeal.Gen.facts)
    (hPre_finite_inputs := Cert.Pre_finite_inputs.Gen.facts) := fun m g _ =>
  (θ_run _ _ _).mono (fun _ h c => by and_intros <;> exact (h c _).trans (ops_keep _ _ (by decide))) (run (F := Ideal) m g)

end Cert.ReferenceIdeal.RefRun

end
-- ==== Proof.KIRunCond.lean ====
import proofs.«430351_j36395552866780_1_alg».proof.Proof.KIFrame

noncomputable section

namespace Cert.KernelIdeal.SegSum

open Idealize.ShloMosaic Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds
open Idealize.ShloMosaic.Pipeline (Seg)
open Cert.KernelIdeal Cert.KernelIdeal.Gen

variable {F : FTy → Type} [FloatOps F]

/-- Two posts of one run hold together: both are read at the same final memories. -/
theorem run_and {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val} {Q₁ Q₂ : PUnit × MemSt nD τ sig Val → Prop}
    (h₁ : θ_run defs p s Q₁) (h₂ : θ_run defs p s Q₂) : θ_run defs p s fun r => Q₁ r ∧ Q₂ r :=
  MeshRun.mk (fun t ht hf => ⟨h₁.post t ht hf, h₂.post t ht hf⟩) h₁.progress h₁.fair

variable (m : (ℓ : Loc nD τ sig) → Buf (Elt F) ℓ)

abbrev segsD := segs m (outsD m) 𝒱₀ L lv (fun _ c => Rr c) () (pdats m (outsD m)) (reg0 m (outsD m) (solves m)) (reg1 m (outsD m) (solves m)) (reg2 m (outsD m) (solves m))

/-- @main run as its list of segments over the solved outputs, with the result array named. -/
theorem run_cond (ρ : Dev nD → PrngReg) :
    θ_run defs (onTc (τ := τ) (main (F := F))) ⟨m, fun _ => 0, ρ⟩ (fun r => ∀ c : Dev nD,
      r.2.mem ((c.tc : Thread nD τ).loc main_v139) = V19 m (outsD m) c main_v139) := by
  refine Pipeline.θ_run_regions_kit_dev (pcfgs (F := F)) adm (pdats m (outsD m)) () cellOf_inj emb₁ defs₀ 𝒱₀ L lv m ρ main (segsD m)
    (fun c Q => by
      rewrite [main_chain c, Seg.run_eq_chain,
        show (segsD m c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          StableHlo.seq hostOps3_3,
          StableHlo.seq hostOps3_4 ] from rfl]
      exact .rfl)
    (fun c => by simp only [segsD, segs, Seg.pipes_host, Seg.pipes_region, Seg.pipes_nil]; decide) 0 (fun _ _ => rfl) _ _ hu₀
    (T₀ := fun c => iprop(StableHlo.held (c : Thread nD τ) (Pipeline.ucRefs τ sig) (V0 m c) ∗ Rr c))
    (Tₙ := fun c => StableHlo.held (c : Thread nD τ) (Pipeline.ucRefs τ sig) (V19 m (outsD m) c))
    (hch := fun c => ⟨.rfl, .rfl, .rfl, .rfl, .rfl, .rfl, .rfl, .rfl, .rfl, .rfl, .rfl, .rfl, .rfl, .rfl, .rfl, .rfl, .rfl, .rfl, .rfl,
      sep_mono .rfl (by iintro ⟨-, HO⟩; iexact HO)⟩)
    (hinit := Pipeline.initEach L lv fun c => ?_)
    (QY := fun c s => s.mem ((c.tc : Thread nD τ).loc main_v139) = V19 m (outsD m) c main_v139)
    (hfin := fun c s' => ?_) (hQ := fun _ h => h)
  · rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V19 m (outsD m) c) s') $$ [Hh HSI]
    · isplitl [Hh] <;> iassumption
    icases Hr with ⟨%h, HSI⟩
    imodintro
    isplitr
    · ipureintro
      exact h (Proc.devRef .tc main_v139) (Finset.mem_filter.mpr ⟨StableHlo.devRef_mem_tcRefs main_v139, by decide⟩)
    · iexact HSI

end Cert.KernelIdeal.SegSum

end
-- ==== Proof.OneHot0.lean ====
import proofs.«430351_j36395552866780_1_alg».proof.Proof.Gen.KernelIdeal.Skeleton
import Idealize.ShloMosaic.PureOps.Ideal.Laws
import Idealize.ShloMosaic.Lib.ValueLayout
import Idealize.ShloMosaic.Lib.WordArith

noncomputable section

namespace Cert.KernelIdeal.SegSum

open Idealize.ShloMosaic Idealize.ShloMosaic.ValueIdx
open Cert.KernelIdeal Cert.KernelIdeal.Gen

theorem broadcastTo_a1_ab_apply {α : Type} {a b : ℕ} (v : (⟨2, ![a, 1]⟩ : Shape).Idx → α)
    (h : (⟨2, ![a, 1]⟩ : Shape).Broadcasts ⟨2, ![a, b]⟩) (e : Fin a) (t : Fin b) :
    broadcastTo ⟨2, ![a, b]⟩ v h (ix2 e t) = v (ix2 e (0 : Fin 1)) := by
  refine broadcastTo_apply v h (ix2 e t) (ix2 e (0 : Fin 1)) fun ax => ?_
  match ax with
  | ⟨0, _⟩ =>
    show e.val = if a = 1 then 0 else e.val
    split
    · have := e.isLt; omega
    · rfl
  | ⟨1, _⟩ => rfl

-- The equality bit of two words, widened and read signed, is one or zero.
theorem onehot_word (x y : BitVec 32) :
    FloatOps.sitofp (F := Ideal) .f32 ((IntOp.cmpi .eq x y).setWidth 32) = if x = y then (1 : EReal) else 0 := by
  show ((((BitVec.ofBool (x == y)).setWidth 32).toInt : ℝ) : EReal) = _
  by_cases h : x = y
  · simp [h]
  · simp [h, beq_eq_false_iff_ne.2 h]

-- Entry (e, t) of the one-hot matrix is 1 exactly when edge e's destination is node nt * 2000 + t.
theorem onehot_apply (nt : ℕ) (hnt : nt < 50) (d : IVec S8000x1 32) (hb1 : S8000x1.Broadcasts S8000x2000)
    (hb2 : S1x2000.Broadcasts S8000x2000) (hi : S1x2000.Iotas .tc 32 [1]) (h1 : 1 < 32)
    (hf : FTy.bits .bf16 < FTy.bits .f32) (e : Fin 8000) (t : Fin 2000) :
    (truncf .bf16 (sitofp (F := Ideal) .f32 (extui 32 (cmpi .eq (broadcastTo S8000x2000 d hb1)
        (broadcastTo S8000x2000 (addi (broadcast S1x2000 (Scalar.muli (BitVec.ofNat 32 nt) 2000#32))
          (iota .tc S1x2000 32 [1] hi)) hb2)) h1)) hf : FVec Ideal S8000x2000 .bf16) (ix2 e t)
      = if (d (ix2 e 0)).toInt = ((nt * 2000 + t.val : ℕ) : Int) then (1 : EReal) else 0 := by
  rw [truncf_apply, sitofp_apply, extui_apply]
  show FloatOps.sitofp (F := Ideal) .f32 ((IntOp.cmpi .eq (broadcastTo S8000x2000 d hb1 (ix2 e t))
    (broadcastTo S8000x2000 _ hb2 (ix2 e t))).setWidth 32) = _
  rw [broadcastTo_a1_ab_apply, broadcastTo_1b_ab_apply, onehot_word]
  show (if d (ix2 e 0) = BitVec.ofNat 32 nt * BitVec.ofNat 32 2000 + iota .tc S1x2000 32 [1] hi (ix2 0 t) then _ else _) = _
  rw [show iota .tc S1x2000 32 [1] hi (ix2 0 t) = BitVec.ofNat 32 t.val from iota_single_apply .tc S1x2000 32 1 hi _,
    ← BitVec.ofNat_mul, ← BitVec.ofNat_add]
  rw [← WordArith.toInt_ofNat_small _ (show nt * 2000 + t.val < 2 ^ 31 by have := t.isLt; omega)]
  exact if_congr ⟨congrArg _, BitVec.eq_of_toInt_eq⟩ rfl rfl

-- A product contracted on axis 0 of both operands sums A (e, p) * B (e, q) over the rows e.
theorem matmulT_apply {C : ℕ} {wf : DotDims.WF S8000x2000 ⟨2, ![8000, C]⟩ ⟨2, ![2000, C]⟩ [0] [0] [1] [1] [] []}
    (D : DotDims S8000x2000 ⟨2, ![8000, C]⟩ ⟨2, ![2000, C]⟩) (hD : D = ⟨[0], [0], [1], [1], [], [], wf⟩)
    (A : FVec Ideal S8000x2000 .bf16) (B : FVec Ideal ⟨2, ![8000, C]⟩ .bf16) (p : Fin 2000) (q : Fin C) :
    matmul D none A B (constant (F := Ideal) ⟨2, ![2000, C]⟩ .f32 0x00000000#32) (ix2 p q)
      = ∑ e : Fin 8000, A (ix2 e p) * B (ix2 e q) := by
  have hr : D.contr.rank = 1 := by subst hD; rfl
  have hs : D.contr.size ⟨0, by omega⟩ = 8000 := by subst hD; rfl
  show FloatOps.matmul _ none A B _ (ix2 p q) = _
  rw [Ideal.matmul_constant_zero_apply, ← Equiv.sum_comp (contrEquiv1 D 8000 hr hs).symm]
  refine Finset.sum_congr rfl fun e _ => ?_
  subst hD
  exact congrArg₂ (· * ·) (congrArg A (Shape.idx_ext₂ rfl rfl)) (congrArg B (Shape.idx_ext₂ rfl rfl))

theorem pay1_apply0 (j : S2000x8.Idx) : (k0_pay1 (F := Ideal)) j = 0 := by
  unfold k0_pay1
  simp only [shapeCast_self, broadcast_apply]
  exact Ideal.ofBits_zero_f32

-- One step adds, at (p, q), the rows of g whose destination is node (i 0) * 2000 + p.
theorem pay2_apply0 (i : grid0.Coords) (d : Vec Ideal S8000x1 .i32) (g : Vec Ideal S8000x8 .f32)
    (acc : Vec Ideal S2000x8 .f32) (p : Fin 2000) (q : Fin 8) :
    k0_pay2 (F := Ideal) i d g acc (ix2 p q)
      = acc (ix2 p q) + ∑ e : Fin 8000,
          if (d (ix2 e 0)).toInt = (((i 0).val * 2000 + p.val : ℕ) : Int) then g (ix2 e q) else 0 := by
  unfold k0_pay2
  simp only [shapeCast_self]
  rw [addf_apply, matmulT_apply dot_S8000x2000_S8000x8_S2000x8_0_0_1_1_n_n rfl]
  congr 1
  refine Finset.sum_congr rfl fun e _ => ?_
  rw [onehot_apply (i 0).val (i 0).isLt, truncf_apply]
  split <;> [exact one_mul _; exact zero_mul _]

end Cert.KernelIdeal.SegSum

end
-- ==== Proof.Chunks.lean ====
import Mathlib.Data.EReal.Basic
import Mathlib.Data.Fintype.BigOperators
import Mathlib.Algebra.BigOperators.Group.Finset.Basic

namespace Cert.SegSumAlg

-- a consecutive chunks of b terms are the first a * b terms.
theorem sum_chunks_gen {M : Type} [AddCommMonoid M] (a b : ℕ) (f : ℕ → M) :
    ∑ k ∈ Finset.range a, ∑ e : Fin b, f (k * b + e.val) = ∑ n : Fin (a * b), f n.val := by
  rw [Fin.sum_univ_eq_sum_range (fun n => f n) (a * b)]
  induction a with
  | zero => simp
  | succ a ih =>
    rw [Finset.sum_range_succ, ih, Nat.succ_mul, Finset.sum_range_add,
      Fin.sum_univ_eq_sum_range (fun e => f (a * b + e)) b]

theorem sum_chunks (f : ℕ → EReal) :
    ∑ k ∈ Finset.range 625, ∑ e : Fin 8000, f (k * 8000 + e.val) = ∑ n : Fin 5000000, f n.val :=
  sum_chunks_gen 625 8000 f

end Cert.SegSumAlg
-- ==== Proof.SegSumSpec.lean ====
import Idealize.ShloMosaic.Lib.ValueIdx

noncomputable section

namespace Cert.SegSumSpec

open Idealize.ShloMosaic Idealize.ShloMosaic.ValueIdx

-- At (g, j): the sum of upd (n, j) over the rows n whose index word, read signed, is g.
def segSum (G N C : Nat) (idx : IVec ⟨2, ![N, 1]⟩ 32) (upd : (⟨2, ![N, C]⟩ : Shape).Idx → EReal) :
    (⟨2, ![G, C]⟩ : Shape).Idx → EReal :=
  fun j => ∑ n : Fin N, if (idx (ix2 n 0)).toInt = ((j 0).val : Int) then upd (ix2 n (j 1)) else 0

theorem segSum_apply (G N C : Nat) (idx : IVec ⟨2, ![N, 1]⟩ 32) (upd : (⟨2, ![N, C]⟩ : Shape).Idx → EReal)
    (g : Fin G) (j : Fin C) :
    segSum G N C idx upd (ix2 g j)
      = ∑ n : Fin N, if (idx (ix2 n 0)).toInt = (g.val : Int) then upd (ix2 n j) else 0 := rfl

end Cert.SegSumSpec

end
-- ==== Proof.KIValue0.lean ====
import proofs.«430351_j36395552866780_1_alg».proof.Proof.KIData0
import proofs.«430351_j36395552866780_1_alg».proof.Proof.OneHot0
import proofs.«430351_j36395552866780_1_alg».proof.Proof.Chunks
import proofs.«430351_j36395552866780_1_alg».proof.Proof.SegSumSpec

noncomputable section

namespace Cert.KernelIdeal.SegSum

open Idealize.ShloMosaic Idealize.ShloMosaic.TcCoe Idealize.ShloMosaic.ValueIdx
open Cert.KernelIdeal Cert.KernelIdeal.Gen
open Cert.SegSumSpec Cert.SegSumAlg

theorem tlt0 (t : Fin cfg0.N) : t.val < 31250 := lt_of_lt_of_eq t.isLt N_0

theorem word_toNat0 (n : ℕ) (h : n < 4294967296) : (BitVec.ofNat 32 n).toNat = n := by
  rw [BitVec.toNat_ofNat]; exact Nat.mod_eq_of_lt h

theorem index0_0 (t : Fin cfg0.N) : win0_0.index t = ![t.val % 625, 0] := by
  show ![(BitVec.ofNat 32 _).toNat, _] = _
  rw [coords0_1 t, word_toNat0 _ (by omega)]
  rfl

theorem index0_1 (t : Fin cfg0.N) : win0_1.index t = ![t.val % 625, 0] := index0_0 t

theorem index0_2 (t : Fin cfg0.N) : win0_2.index t = ![t.val / 625, 0] := by
  have := tlt0 t
  show ![(BitVec.ofNat 32 _).toNat, _] = _
  rw [coords0_0 t, word_toNat0 _ (by omega)]
  rfl

theorem flush0_2_iff (t : Fin cfg0.N) : (cfg0.win 2).flush t = true ↔ t.val % 625 = 624 := by
  have ht := tlt0 t
  have hv : (![(t.val + 1) / 625, 0] : Fin 2 → ℕ) ≠ ![t.val / 625, 0] ↔ (t.val + 1) / 625 ≠ t.val / 625 :=
    ⟨fun hv e => hv (by rw [e]), fun hv e => hv (congrFun e 0)⟩
  show (win0_2.isOut && (decide (t.val + 1 = grid0.N) || decide (∃ h : t.val + 1 < grid0.N, win0_2.index ⟨t.val + 1, h⟩ ≠ win0_2.index t))) = true ↔ _
  simp only [show win0_2.isOut = true from rfl, Bool.true_and, Bool.or_eq_true, decide_eq_true_iff, index0_2, N_0, exists_prop, hv]
  omega

variable (V : (c : Dev nD) → (b : Ref sig .tc) → Buf (Elt Ideal) ((c : Thread nD τ).loc b))

-- Row e of the chunk at point t is row (t mod 625) * 8000 + e of the array.
theorem gblk0_apply (c : Dev nD) (t : Fin cfg0.N) (e : Fin 8000) (q : Fin 8) :
    gblk0 V c t (ix2 e q) = V c main_v11 (ix2 ⟨t.val % 625 * 8000 + e.val, by have := e.isLt; omega⟩ q) := by
  show V c main_v11 _ = V c main_v11 _
  congr 1
  refine Shape.idx_ext₂ ((win0_0.rect_emb_val t _ 0).trans ?_) ((win0_0.rect_emb_val t _ 1).trans ?_) <;> rw [index0_0]
  · rfl
  · exact Nat.zero_add _

theorem dblk0_apply (c : Dev nD) (t : Fin cfg0.N) (e : Fin 8000) :
    dblk0 V c t (ix2 e 0) = V c main_v4 (ix2 ⟨t.val % 625 * 8000 + e.val, by have := e.isLt; omega⟩ 0) := by
  show V c main_v4 _ = V c main_v4 _
  congr 1
  refine Shape.idx_ext₂ ((win0_1.rect_emb_val t _ 0).trans ?_) ((win0_1.rect_emb_val t _ 1).trans ?_) <;> rw [index0_1] <;> rfl

-- What edge n adds to column q of node g: its row's entry when its destination is g.
def contrib0 (c : Dev nD) (g : ℕ) (q : Fin 8) : ℕ → EReal := fun n =>
  if h : n < 5000000 then
    (if (V c main_v4 (ix2 ⟨n, h⟩ 0)).toInt = (g : Int) then (V c main_v11 (ix2 ⟨n, h⟩ q) : EReal) else 0)
  else 0

theorem step0_apply (c : Dev nD) (n : ℕ) (hn : n < cfg0.N) (acc : Vec Ideal S2000x8 .f32) (p : Fin 2000) (q : Fin 8) :
    step0 V c ⟨n, hn⟩ acc (ix2 p q)
      = acc (ix2 p q) + ∑ e : Fin 8000, contrib0 V c (n / 625 * 2000 + p.val) q (n % 625 * 8000 + e.val) := by
  unfold step0
  rw [pay2_apply0]
  congr 1
  refine Finset.sum_congr rfl fun e _ => ?_
  rw [dblk0_apply, gblk0_apply, coords0_0]
  unfold contrib0
  rw [dif_pos (by have := e.isLt; omega)]

-- After point n the accumulator holds, chunk by chunk, what chunks 0 … n mod 625 add to the tile's nodes.
theorem accAt0_apply (c : Dev nD) (n : ℕ) : ∀ (hn : n < cfg0.N) (p : Fin 2000) (q : Fin 8),
    accAt0 V c n hn (ix2 p q)
      = ∑ k ∈ Finset.range (n % 625 + 1), ∑ e : Fin 8000, contrib0 V c (n / 625 * 2000 + p.val) q (k * 8000 + e.val) := by
  induction n using Nat.strong_induction_on with
  | _ n ih =>
    intro hn p q
    by_cases hz : n % 625 = 0
    · rw [show accAt0 V c n hn = _ from accAt0_first V c ⟨n, hn⟩ hz, step0_apply V c n hn, pay1_apply0, zero_add, hz,
        Nat.zero_add, Finset.sum_range_one]
    · rw [show accAt0 V c n hn = _ from accAt0_rest V c ⟨n, hn⟩ hz, step0_apply V c n hn, ih (n - 1) (by omega) _ p q,
        show (n - 1) / 625 = n / 625 by omega, show (n - 1) % 625 + 1 = n % 625 by omega, Finset.sum_range_succ]

theorem oblk0_emb (t : Fin cfg0.N) (p : Fin 2000) (q : Fin 8) :
    ((cfg0.win 2).blk t).view.emb (ix2 p q)
      = (ix2 (⟨t.val / 625 * 2000 + p.val, by have := tlt0 t; have := p.isLt; omega⟩ : Fin 100000) q : S100000x8.Idx) := by
  refine Shape.idx_ext₂ ((win0_2.rect_emb_val t _ 0).trans ?_) ((win0_2.rect_emb_val t _ 1).trans ?_) <;> rw [index0_2]
  · rfl
  · exact Nat.zero_add _

-- 625 chunks of 8000 edges are all 5000000 edges: after chunk 624 the accumulator is the tile's block of the segment sum.
theorem flushed0_eq (c : Dev nD) (t : Fin cfg0.N) (hf : t.val % 625 = 624) :
    (dat0 V c).flushed 2 t
      = ((cfg0.win 2).blk t).view.read (Elt Ideal) (segSum 100000 5000000 8 (V c main_v4) (V c main_v11)) := by
  show (cfg0.win 2).cut (grid0.coords t) ((dat0 V c).after 2 t) = _
  rw [after0_2]
  funext j
  rw [View.read_apply]
  obtain ⟨p, q, rfl⟩ : ∃ (p : Fin 2000) (q : Fin 8), j = ix2 p q := ⟨j 0, j 1, eq_ix2 j⟩
  rw [cast_eq, oblk0_emb t p q, segSum_apply]
  show accAt0 V c t.val t.isLt (ix2 p q) = _
  rw [accAt0_apply, hf, show 624 + 1 = 625 from rfl, sum_chunks]
  refine Finset.sum_congr rfl fun n _ => ?_
  unfold contrib0
  rw [dif_pos n.isLt]

-- Row r of the output is row r mod 2000 of node tile r / 2000.
theorem cover0 (i : S100000x8.Idx) :
    ∃ t : Fin cfg0.N, (cfg0.win 2).flush t = true ∧ i ∈ ((cfg0.win 2).blk t).view.set := by
  have hi : (i 0).val < 100000 := (i 0).isLt
  have ht : (i 0).val / 2000 * 625 + 624 < cfg0.N := lt_of_lt_of_eq (show _ < 31250 by omega) N_0.symm
  refine ⟨⟨_, ht⟩, (flush0_2_iff _).2 (by show (_ * 625 + 624) % 625 = 624; omega), ?_⟩
  have h := ((cfg0.win 2).blk ⟨_, ht⟩).view.emb_mem_set (ix2 ⟨(i 0).val % 2000, Nat.mod_lt _ (by decide)⟩ (i 1 : Fin 8))
  rw [oblk0_emb ⟨_, ht⟩ _ (i 1)] at h
  refine cast (congrArg (· ∈ _) (Shape.idx_ext₂ ?_ ?_)) h
  · show (_ * 625 + 624) / 625 * 2000 + (i 0).val % 2000 = (i 0).val
    omega
  · rfl

theorem arrAt0_eq (c : Dev nD) :
    (dat0 (F := Ideal) V c).arrAt 2 cfg0.N = segSum 100000 5000000 8 (V c main_v4) (V c main_v11) :=
  (dat0 V c).arrAt_eq_of_cover 2 _ (fun t hf => flushed0_eq V c t ((flush0_2_iff t).1 hf)) cover0

end Cert.KernelIdeal.SegSum

end
-- ==== Proof.OneHot1.lean ====
import proofs.«430351_j36395552866780_1_alg».proof.Proof.OneHot0

noncomputable section

namespace Cert.KernelIdeal.SegSum

open Idealize.ShloMosaic Idealize.ShloMosaic.ValueIdx
open Cert.KernelIdeal Cert.KernelIdeal.Gen

theorem pay1_apply1 (j : S2000x16.Idx) : (k1_pay1 (F := Ideal)) j = 0 := by
  unfold k1_pay1
  simp only [shapeCast_self, broadcast_apply]
  exact Ideal.ofBits_zero_f32

theorem pay2_apply1 (i : grid1.Coords) (d : Vec Ideal S8000x1 .i32) (g : Vec Ideal S8000x16 .f32)
    (acc : Vec Ideal S2000x16 .f32) (p : Fin 2000) (q : Fin 16) :
    k1_pay2 (F := Ideal) i d g acc (ix2 p q)
      = acc (ix2 p q) + ∑ e : Fin 8000,
          if (d (ix2 e 0)).toInt = (((i 0).val * 2000 + p.val : ℕ) : Int) then g (ix2 e q) else 0 := by
  unfold k1_pay2
  simp only [shapeCast_self]
  rw [addf_apply, matmulT_apply dot_S8000x2000_S8000x16_S2000x16_0_0_1_1_n_n rfl]
  congr 1
  refine Finset.sum_congr rfl fun e _ => ?_
  rw [onehot_apply (i 0).val (i 0).isLt, truncf_apply]
  split <;> [exact one_mul _; exact zero_mul _]

end Cert.KernelIdeal.SegSum

end
-- ==== Proof.KIValue1.lean ====
import proofs.«430351_j36395552866780_1_alg».proof.Proof.KIData1
import proofs.«430351_j36395552866780_1_alg».proof.Proof.OneHot1
import proofs.«430351_j36395552866780_1_alg».proof.Proof.Chunks
import proofs.«430351_j36395552866780_1_alg».proof.Proof.SegSumSpec

noncomputable section

namespace Cert.KernelIdeal.SegSum

open Idealize.ShloMosaic Idealize.ShloMosaic.TcCoe Idealize.ShloMosaic.ValueIdx
open Cert.KernelIdeal Cert.KernelIdeal.Gen
open Cert.SegSumSpec Cert.SegSumAlg

theorem tlt1 (t : Fin cfg1.N) : t.val < 31250 := lt_of_lt_of_eq t.isLt N_1

theorem word_toNat1 (n : ℕ) (h : n < 4294967296) : (BitVec.ofNat 32 n).toNat = n := by
  rw [BitVec.toNat_ofNat]; exact Nat.mod_eq_of_lt h

theorem index1_0 (t : Fin cfg1.N) : win1_0.index t = ![t.val % 625, 0] := by
  show ![(BitVec.ofNat 32 _).toNat, _] = _
  rw [coords1_1 t, word_toNat1 _ (by omega)]
  rfl

theorem index1_1 (t : Fin cfg1.N) : win1_1.index t = ![t.val % 625, 0] := index1_0 t

theorem index1_2 (t : Fin cfg1.N) : win1_2.index t = ![t.val / 625, 0] := by
  have := tlt1 t
  show ![(BitVec.ofNat 32 _).toNat, _] = _
  rw [coords1_0 t, word_toNat1 _ (by omega)]
  rfl

theorem flush1_2_iff (t : Fin cfg1.N) : (cfg1.win 2).flush t = true ↔ t.val % 625 = 624 := by
  have ht := tlt1 t
  have hv : (![(t.val + 1) / 625, 0] : Fin 2 → ℕ) ≠ ![t.val / 625, 0] ↔ (t.val + 1) / 625 ≠ t.val / 625 :=
    ⟨fun hv e => hv (by rw [e]), fun hv e => hv (congrFun e 0)⟩
  show (win1_2.isOut && (decide (t.val + 1 = grid1.N) || decide (∃ h : t.val + 1 < grid1.N, win1_2.index ⟨t.val + 1, h⟩ ≠ win1_2.index t))) = true ↔ _
  simp only [show win1_2.isOut = true from rfl, Bool.true_and, Bool.or_eq_true, decide_eq_true_iff, index1_2, N_1, exists_prop, hv]
  omega

variable (V : (c : Dev nD) → (b : Ref sig .tc) → Buf (Elt Ideal) ((c : Thread nD τ).loc b))

-- Row e of the chunk at point t is row (t mod 625) * 8000 + e of the array.
theorem gblk1_apply (c : Dev nD) (t : Fin cfg1.N) (e : Fin 8000) (q : Fin 16) :
    gblk1 V c t (ix2 e q) = V c main_v56 (ix2 ⟨t.val % 625 * 8000 + e.val, by have := e.isLt; omega⟩ q) := by
  show V c main_v56 _ = V c main_v56 _
  congr 1
  refine Shape.idx_ext₂ ((win1_0.rect_emb_val t _ 0).trans ?_) ((win1_0.rect_emb_val t _ 1).trans ?_) <;> rw [index1_0]
  · rfl
  · exact Nat.zero_add _

theorem dblk1_apply (c : Dev nD) (t : Fin cfg1.N) (e : Fin 8000) :
    dblk1 V c t (ix2 e 0) = V c main_v4 (ix2 ⟨t.val % 625 * 8000 + e.val, by have := e.isLt; omega⟩ 0) := by
  show V c main_v4 _ = V c main_v4 _
  congr 1
  refine Shape.idx_ext₂ ((win1_1.rect_emb_val t _ 0).trans ?_) ((win1_1.rect_emb_val t _ 1).trans ?_) <;> rw [index1_1] <;> rfl

-- What edge n adds to column q of node g: its row's entry when its destination is g.
def contrib1 (c : Dev nD) (g : ℕ) (q : Fin 16) : ℕ → EReal := fun n =>
  if h : n < 5000000 then
    (if (V c main_v4 (ix2 ⟨n, h⟩ 0)).toInt = (g : Int) then (V c main_v56 (ix2 ⟨n, h⟩ q) : EReal) else 0)
  else 0

theorem step1_apply (c : Dev nD) (n : ℕ) (hn : n < cfg1.N) (acc : Vec Ideal S2000x16 .f32) (p : Fin 2000) (q : Fin 16) :
    step1 V c ⟨n, hn⟩ acc (ix2 p q)
      = acc (ix2 p q) + ∑ e : Fin 8000, contrib1 V c (n / 625 * 2000 + p.val) q (n % 625 * 8000 + e.val) := by
  unfold step1
  rw [pay2_apply1]
  congr 1
  refine Finset.sum_congr rfl fun e _ => ?_
  rw [dblk1_apply, gblk1_apply, coords1_0]
  unfold contrib1
  rw [dif_pos (by have := e.isLt; omega)]

-- After point n the accumulator holds, chunk by chunk, what chunks 0 … n mod 625 add to the tile's nodes.
theorem accAt1_apply (c : Dev nD) (n : ℕ) : ∀ (hn : n < cfg1.N) (p : Fin 2000) (q : Fin 16),
    accAt1 V c n hn (ix2 p q)
      = ∑ k ∈ Finset.range (n % 625 + 1), ∑ e : Fin 8000, contrib1 V c (n / 625 * 2000 + p.val) q (k * 8000 + e.val) := by
  induction n using Nat.strong_induction_on with
  | _ n ih =>
    intro hn p q
    by_cases hz : n % 625 = 0
    · rw [show accAt1 V c n hn = _ from accAt1_first V c ⟨n, hn⟩ hz, step1_apply V c n hn, pay1_apply1, zero_add, hz,
        Nat.zero_add, Finset.sum_range_one]
    · rw [show accAt1 V c n hn = _ from accAt1_rest V c ⟨n, hn⟩ hz, step1_apply V c n hn, ih (n - 1) (by omega) _ p q,
        show (n - 1) / 625 = n / 625 by omega, show (n - 1) % 625 + 1 = n % 625 by omega, Finset.sum_range_succ]

theorem oblk1_emb (t : Fin cfg1.N) (p : Fin 2000) (q : Fin 16) :
    ((cfg1.win 2).blk t).view.emb (ix2 p q)
      = (ix2 (⟨t.val / 625 * 2000 + p.val, by have := tlt1 t; have := p.isLt; omega⟩ : Fin 100000) q : S100000x16.Idx) := by
  refine Shape.idx_ext₂ ((win1_2.rect_emb_val t _ 0).trans ?_) ((win1_2.rect_emb_val t _ 1).trans ?_) <;> rw [index1_2]
  · rfl
  · exact Nat.zero_add _

-- 625 chunks of 8000 edges are all 5000000 edges: after chunk 624 the accumulator is the tile's block of the segment sum.
theorem flushed1_eq (c : Dev nD) (t : Fin cfg1.N) (hf : t.val % 625 = 624) :
    (dat1 V c).flushed 2 t
      = ((cfg1.win 2).blk t).view.read (Elt Ideal) (segSum 100000 5000000 16 (V c main_v4) (V c main_v56)) := by
  show (cfg1.win 2).cut (grid1.coords t) ((dat1 V c).after 2 t) = _
  rw [after1_2]
  funext j
  rw [View.read_apply]
  obtain ⟨p, q, rfl⟩ : ∃ (p : Fin 2000) (q : Fin 16), j = ix2 p q := ⟨j 0, j 1, eq_ix2 j⟩
  rw [cast_eq, oblk1_emb t p q, segSum_apply]
  show accAt1 V c t.val t.isLt (ix2 p q) = _
  rw [accAt1_apply, hf, show 624 + 1 = 625 from rfl, sum_chunks]
  refine Finset.sum_congr rfl fun n _ => ?_
  unfold contrib1
  rw [dif_pos n.isLt]

-- Row r of the output is row r mod 2000 of node tile r / 2000.
theorem cover1 (i : S100000x16.Idx) :
    ∃ t : Fin cfg1.N, (cfg1.win 2).flush t = true ∧ i ∈ ((cfg1.win 2).blk t).view.set := by
  have hi : (i 0).val < 100000 := (i 0).isLt
  have ht : (i 0).val / 2000 * 625 + 624 < cfg1.N := lt_of_lt_of_eq (show _ < 31250 by omega) N_1.symm
  refine ⟨⟨_, ht⟩, (flush1_2_iff _).2 (by show (_ * 625 + 624) % 625 = 624; omega), ?_⟩
  have h := ((cfg1.win 2).blk ⟨_, ht⟩).view.emb_mem_set (ix2 ⟨(i 0).val % 2000, Nat.mod_lt _ (by decide)⟩ (i 1 : Fin 16))
  rw [oblk1_emb ⟨_, ht⟩ _ (i 1)] at h
  refine cast (congrArg (· ∈ _) (Shape.idx_ext₂ ?_ ?_)) h
  · show (_ * 625 + 624) / 625 * 2000 + (i 0).val % 2000 = (i 0).val
    omega
  · rfl

theorem arrAt1_eq (c : Dev nD) :
    (dat1 (F := Ideal) V c).arrAt 2 cfg1.N = segSum 100000 5000000 16 (V c main_v4) (V c main_v56) :=
  (dat1 V c).arrAt_eq_of_cover 2 _ (fun t hf => flushed1_eq V c t ((flush1_2_iff t).1 hf)) cover1

end Cert.KernelIdeal.SegSum

end
-- ==== Proof.OneHot2.lean ====
import proofs.«430351_j36395552866780_1_alg».proof.Proof.OneHot1

noncomputable section

namespace Cert.KernelIdeal.SegSum

open Idealize.ShloMosaic Idealize.ShloMosaic.ValueIdx
open Cert.KernelIdeal Cert.KernelIdeal.Gen

-- The third kernel's payloads are the second's.
theorem pay1_apply2 (j : S2000x16.Idx) : (k2_pay1 (F := Ideal)) j = 0 := pay1_apply1 j

theorem pay2_apply2 (i : grid2.Coords) (d : Vec Ideal S8000x1 .i32) (g : Vec Ideal S8000x16 .f32)
    (acc : Vec Ideal S2000x16 .f32) (p : Fin 2000) (q : Fin 16) :
    k2_pay2 (F := Ideal) i d g acc (ix2 p q)
      = acc (ix2 p q) + ∑ e : Fin 8000,
          if (d (ix2 e 0)).toInt = (((i 0).val * 2000 + p.val : ℕ) : Int) then g (ix2 e q) else 0 :=
  pay2_apply1 i d g acc p q

end Cert.KernelIdeal.SegSum

end
-- ==== Proof.KIValue2.lean ====
import proofs.«430351_j36395552866780_1_alg».proof.Proof.KIData2
import proofs.«430351_j36395552866780_1_alg».proof.Proof.OneHot2
import proofs.«430351_j36395552866780_1_alg».proof.Proof.Chunks
import proofs.«430351_j36395552866780_1_alg».proof.Proof.SegSumSpec

noncomputable section

namespace Cert.KernelIdeal.SegSum

open Idealize.ShloMosaic Idealize.ShloMosaic.TcCoe Idealize.ShloMosaic.ValueIdx
open Cert.KernelIdeal Cert.KernelIdeal.Gen
open Cert.SegSumSpec Cert.SegSumAlg

theorem tlt2 (t : Fin cfg2.N) : t.val < 31250 := lt_of_lt_of_eq t.isLt N_2

theorem word_toNat2 (n : ℕ) (h : n < 4294967296) : (BitVec.ofNat 32 n).toNat = n := by
  rw [BitVec.toNat_ofNat]; exact Nat.mod_eq_of_lt h

theorem index2_0 (t : Fin cfg2.N) : win2_0.index t = ![t.val % 625, 0] := by
  show ![(BitVec.ofNat 32 _).toNat, _] = _
  rw [coords2_1 t, word_toNat2 _ (by omega)]
  rfl

theorem index2_1 (t : Fin cfg2.N) : win2_1.index t = ![t.val % 625, 0] := index2_0 t

theorem index2_2 (t : Fin cfg2.N) : win2_2.index t = ![t.val / 625, 0] := by
  have := tlt2 t
  show ![(BitVec.ofNat 32 _).toNat, _] = _
  rw [coords2_0 t, word_toNat2 _ (by omega)]
  rfl

theorem flush2_2_iff (t : Fin cfg2.N) : (cfg2.win 2).flush t = true ↔ t.val % 625 = 624 := by
  have ht := tlt2 t
  have hv : (![(t.val + 1) / 625, 0] : Fin 2 → ℕ) ≠ ![t.val / 625, 0] ↔ (t.val + 1) / 625 ≠ t.val / 625 :=
    ⟨fun hv e => hv (by rw [e]), fun hv e => hv (congrFun e 0)⟩
  show (win2_2.isOut && (decide (t.val + 1 = grid2.N) || decide (∃ h : t.val + 1 < grid2.N, win2_2.index ⟨t.val + 1, h⟩ ≠ win2_2.index t))) = true ↔ _
  simp only [show win2_2.isOut = true from rfl, Bool.true_and, Bool.or_eq_true, decide_eq_true_iff, index2_2, N_2, exists_prop, hv]
  omega

variable (V : (c : Dev nD) → (b : Ref sig .tc) → Buf (Elt Ideal) ((c : Thread nD τ).loc b))

-- Row e of the chunk at point t is row (t mod 625) * 8000 + e of the array.
theorem gblk2_apply (c : Dev nD) (t : Fin cfg2.N) (e : Fin 8000) (q : Fin 16) :
    gblk2 V c t (ix2 e q) = V c main_v101 (ix2 ⟨t.val % 625 * 8000 + e.val, by have := e.isLt; omega⟩ q) := by
  show V c main_v101 _ = V c main_v101 _
  congr 1
  refine Shape.idx_ext₂ ((win2_0.rect_emb_val t _ 0).trans ?_) ((win2_0.rect_emb_val t _ 1).trans ?_) <;> rw [index2_0]
  · rfl
  · exact Nat.zero_add _

theorem dblk2_apply (c : Dev nD) (t : Fin cfg2.N) (e : Fin 8000) :
    dblk2 V c t (ix2 e 0) = V c main_v4 (ix2 ⟨t.val % 625 * 8000 + e.val, by have := e.isLt; omega⟩ 0) := by
  show V c main_v4 _ = V c main_v4 _
  congr 1
  refine Shape.idx_ext₂ ((win2_1.rect_emb_val t _ 0).trans ?_) ((win2_1.rect_emb_val t _ 1).trans ?_) <;> rw [index2_1] <;> rfl

-- What edge n adds to column q of node g: its row's entry when its destination is g.
def contrib2 (c : Dev nD) (g : ℕ) (q : Fin 16) : ℕ → EReal := fun n =>
  if h : n < 5000000 then
    (if (V c main_v4 (ix2 ⟨n, h⟩ 0)).toInt = (g : Int) then (V c main_v101 (ix2 ⟨n, h⟩ q) : EReal) else 0)
  else 0

theorem step2_apply (c : Dev nD) (n : ℕ) (hn : n < cfg2.N) (acc : Vec Ideal S2000x16 .f32) (p : Fin 2000) (q : Fin 16) :
    step2 V c ⟨n, hn⟩ acc (ix2 p q)
      = acc (ix2 p q) + ∑ e : Fin 8000, contrib2 V c (n / 625 * 2000 + p.val) q (n % 625 * 8000 + e.val) := by
  unfold step2
  rw [pay2_apply2]
  congr 1
  refine Finset.sum_congr rfl fun e _ => ?_
  rw [dblk2_apply, gblk2_apply, coords2_0]
  unfold contrib2
  rw [dif_pos (by have := e.isLt; omega)]

-- After point n the accumulator holds, chunk by chunk, what chunks 0 … n mod 625 add to the tile's nodes.
theorem accAt2_apply (c : Dev nD) (n : ℕ) : ∀ (hn : n < cfg2.N) (p : Fin 2000) (q : Fin 16),
    accAt2 V c n hn (ix2 p q)
      = ∑ k ∈ Finset.range (n % 625 + 1), ∑ e : Fin 8000, contrib2 V c (n / 625 * 2000 + p.val) q (k * 8000 + e.val) := by
  induction n using Nat.strong_induction_on with
  | _ n ih =>
    intro hn p q
    by_cases hz : n % 625 = 0
    · rw [show accAt2 V c n hn = _ from accAt2_first V c ⟨n, hn⟩ hz, step2_apply V c n hn, pay1_apply2, zero_add, hz,
        Nat.zero_add, Finset.sum_range_one]
    · rw [show accAt2 V c n hn = _ from accAt2_rest V c ⟨n, hn⟩ hz, step2_apply V c n hn, ih (n - 1) (by omega) _ p q,
        show (n - 1) / 625 = n / 625 by omega, show (n - 1) % 625 + 1 = n % 625 by omega, Finset.sum_range_succ]

theorem oblk2_emb (t : Fin cfg2.N) (p : Fin 2000) (q : Fin 16) :
    ((cfg2.win 2).blk t).view.emb (ix2 p q)
      = (ix2 (⟨t.val / 625 * 2000 + p.val, by have := tlt2 t; have := p.isLt; omega⟩ : Fin 100000) q : S100000x16.Idx) := by
  refine Shape.idx_ext₂ ((win2_2.rect_emb_val t _ 0).trans ?_) ((win2_2.rect_emb_val t _ 1).trans ?_) <;> rw [index2_2]
  · rfl
  · exact Nat.zero_add _

-- 625 chunks of 8000 edges are all 5000000 edges: after chunk 624 the accumulator is the tile's block of the segment sum.
theorem flushed2_eq (c : Dev nD) (t : Fin cfg2.N) (hf : t.val % 625 = 624) :
    (dat2 V c).flushed 2 t
      = ((cfg2.win 2).blk t).view.read (Elt Ideal) (segSum 100000 5000000 16 (V c main_v4) (V c main_v101)) := by
  show (cfg2.win 2).cut (grid2.coords t) ((dat2 V c).after 2 t) = _
  rw [after2_2]
  funext j
  rw [View.read_apply]
  obtain ⟨p, q, rfl⟩ : ∃ (p : Fin 2000) (q : Fin 16), j = ix2 p q := ⟨j 0, j 1, eq_ix2 j⟩
  rw [cast_eq, oblk2_emb t p q, segSum_apply]
  show accAt2 V c t.val t.isLt (ix2 p q) = _
  rw [accAt2_apply, hf, show 624 + 1 = 625 from rfl, sum_chunks]
  refine Finset.sum_congr rfl fun n _ => ?_
  unfold contrib2
  rw [dif_pos n.isLt]

-- Row r of the output is row r mod 2000 of node tile r / 2000.
theorem cover2 (i : S100000x16.Idx) :
    ∃ t : Fin cfg2.N, (cfg2.win 2).flush t = true ∧ i ∈ ((cfg2.win 2).blk t).view.set := by
  have hi : (i 0).val < 100000 := (i 0).isLt
  have ht : (i 0).val / 2000 * 625 + 624 < cfg2.N := lt_of_lt_of_eq (show _ < 31250 by omega) N_2.symm
  refine ⟨⟨_, ht⟩, (flush2_2_iff _).2 (by show (_ * 625 + 624) % 625 = 624; omega), ?_⟩
  have h := ((cfg2.win 2).blk ⟨_, ht⟩).view.emb_mem_set (ix2 ⟨(i 0).val % 2000, Nat.mod_lt _ (by decide)⟩ (i 1 : Fin 16))
  rw [oblk2_emb ⟨_, ht⟩ _ (i 1)] at h
  refine cast (congrArg (· ∈ _) (Shape.idx_ext₂ ?_ ?_)) h
  · show (_ * 625 + 624) / 625 * 2000 + (i 0).val % 2000 = (i 0).val
    omega
  · rfl

theorem arrAt2_eq (c : Dev nD) :
    (dat2 (F := Ideal) V c).arrAt 2 cfg2.N = segSum 100000 5000000 16 (V c main_v4) (V c main_v101) :=
  (dat2 V c).arrAt_eq_of_cover 2 _ (fun t hf => flushed2_eq V c t ((flush2_2_iff t).1 hf)) cover2

end Cert.KernelIdeal.SegSum

end
-- ==== Proof.KStages.lean ====
import proofs.«430351_j36395552866780_1_alg».proof.Proof.Gen.KernelIdeal.Regions
import Idealize.ShloMosaic.PureOps.Ideal

noncomputable section

namespace Cert.KernelIdeal.Stages

open Idealize.ShloMosaic
open Cert.KernelIdeal.Gen

abbrev X8 : Type := FVec Ideal S100000x8 .f32
abbrev X16 : Type := FVec Ideal S100000x16 .f32
abbrev R16 : Type := FVec Ideal S16 .f32
abbrev Sc : Type := FVec Ideal S_ .f32
abbrev M8 : Type := FVec Ideal S8x16 .f32
abbrev M16 : Type := FVec Ideal S16x16 .f32
abbrev EdgeIx : Type := IVec S2x5000000 32
abbrev EVec : Type := IVec S5000000 32
abbrev ECol : Type := IVec S5000000x1 32

def srcVec (ei : EdgeIx) : EVec :=
  shapeCast S5000000 (extractStridedSlice S1x5000000 ![0, 0] ei slices_S2x5000000_S1x5000000_0_0) shapeCasts_S1x5000000_S5000000

def dstVec (ei : EdgeIx) : EVec :=
  shapeCast S5000000 (extractStridedSlice S1x5000000 ![1, 0] ei slices_S2x5000000_S1x5000000_1_0) shapeCasts_S1x5000000_S5000000

def dstCol (ei : EdgeIx) : ECol := shapeCast S5000000x1 (dstVec ei) shapeCasts_S5000000_S5000000x1

def idxCol (s : EVec) : ECol :=
  broadcastInDim S5000000x1 ![0] bcast_S5000000_S5000000x1_0
    (select (cmpi .slt s (broadcastInDim S5000000 ![] bcast_S_S5000000 (constantI S_ 32 0#32)))
      (addi s (broadcastInDim S5000000 ![] bcast_S_S5000000 (constantI S_ 32 100000#32))) s)

def gather8 (x : X8) (i : ECol) : FVec Ideal S5000000x8 .f32 :=
  Host.gather gather_S100000x8_S5000000x1_S5000000x8_1_0_n_n_0_1_18 x i

def gather16 (x : X16) (i : ECol) : FVec Ideal S5000000x16 .f32 :=
  Host.gather gather_S100000x16_S5000000x1_S5000000x16_1_0_n_n_0_1_116 x i

def bias (b : R16) : X16 :=
  broadcastInDim S100000x16 ![0, 1] bcast_S1x16_S100000x16_0_1 (broadcastInDim S1x16 ![1] bcast_S16_S1x16_1 b)

def lin8 (x : X8) (w : M8) (b : R16) : X16 :=
  addf (Host.dotGeneral (F := Ideal) dot_S100000x8_S8x16_S100000x16_1_0_0_1_n_n none x w) (bias b)

def lin16 (x : X16) (w : M16) (b : R16) : X16 :=
  addf (Host.dotGeneral (F := Ideal) dot_S100000x16_S16x16_S100000x16_1_0_0_1_n_n none x w) (bias b)

def mix8 (eps : Sc) (x agg : X8) : X8 :=
  addf (mulf (broadcastInDim S100000x8 ![] bcast_S_S100000x8 (addf (constant (F := Ideal) S_ .f32 0x3F800000#32) eps)) x) agg

def mix16 (eps : Sc) (x agg : X16) : X16 :=
  addf (mulf (broadcastInDim S100000x16 ![] bcast_S_S100000x16 (addf (constant (F := Ideal) S_ .f32 0x3F800000#32) eps)) x) agg

def lreluS (slope : Sc) (h : X16) : X16 :=
  select (cmpf .oge h (broadcastInDim S100000x16 ![] bcast_S_S100000x16 (constant (F := Ideal) S_ .f32 0x00000000#32))) h
    (mulf (broadcastInDim S100000x16 ![] bcast_S_S100000x16 (id slope)) h)

def lrelu (h : X16) : X16 := lreluS (constant (F := Ideal) S_ .f32 0x3C23D70A#32) h

def relu (h : X16) : X16 :=
  maximumf h (broadcastInDim S100000x16 ![] bcast_S_S100000x16 (constant (F := Ideal) S_ .f32 0x00000000#32))

def colMean (t : X16) : R16 :=
  Host.divf (F := Ideal) (Host.reduceAdd (F := Ideal) t (constant (F := Ideal) S_ .f32 0x00000000#32) reducesTo_S100000x16_S16_d0 h_S_)
    (broadcastInDim S16 ![] bcast_S_S16 (constant (F := Ideal) S_ .f32 0x47C35000#32))

def colVarD (t : X16) (ddof : IVec S_ 32) : R16 :=
  let mu : FVec Ideal S1x16 .f32 :=
    Host.divf (F := Ideal)
      (broadcastInDim S1x16 ![1] bcast_S16_S1x16_1
        (Host.reduceAdd (F := Ideal) t (constant (F := Ideal) S_ .f32 0x00000000#32) reducesTo_S100000x16_S16_d0 h_S_))
      (broadcastInDim S1x16 ![] bcast_S_S1x16 (constant (F := Ideal) S_ .f32 0x47C35000#32))
  let d : X16 := subf t (broadcastInDim S100000x16 ![0, 1] bcast_S1x16_S100000x16_0_1 mu)
  let n : Sc := subf (constant (F := Ideal) S_ .f32 0x47C35000#32) (sitofp .f32 ddof)
  (fun p a b => select (broadcastInDim S16 ![] bcast_S_S16 p) a b)
    (cmpf .ogt n (constant (F := Ideal) S_ .f32 0x00000000#32))
    (Host.divf (F := Ideal)
      (Host.reduceAdd (F := Ideal) (mulf d d) (constant (F := Ideal) S_ .f32 0x00000000#32) reducesTo_S100000x16_S16_d0 h_S_)
      (broadcastInDim S16 ![] bcast_S_S16 n))
    (broadcastInDim S16 ![] bcast_S_S16 (id (constant (F := Ideal) S_ .f32 0x7FC00000#32)))

def colVar (t : X16) : R16 := colVarD t (constantI S_ 32 0#32)

def bnWith (t : X16) (mu var g be : R16) : X16 :=
  addf
    (mulf
      (mulf (subf t (bias mu))
        (bias (Host.rsqrt (F := Ideal) (addf var (broadcastInDim S16 ![] bcast_S_S16 (constant (F := Ideal) S_ .f32 0x3727C5AC#32))))))
      (bias g))
    (bias be)

def bn (t : X16) (g be : R16) : X16 := bnWith t (colMean t) (colVar t) g be

def Block1 (x : X8) (eps : Sc) (w1 : M8) (b1 : R16) (w2 : M16) (b2 : R16) (rw : M8) (rb g be : R16) (agg : X8) : X16 :=
  bn (addf (lin16 (lrelu (lin8 (mix8 eps x agg) w1 b1)) w2 b2) (lin8 x rw rb)) g be

def BlockR (h : X16) (eps : Sc) (w1 : M16) (b1 : R16) (w2 : M16) (b2 : R16) (rw : M16) (rb g be : R16) (agg : X16) : X16 :=
  bn (addf (lin16 (relu (lin16 (mix16 eps h agg) w1 b1)) w2 b2) (lin16 h rw rb)) g be

end Cert.KernelIdeal.Stages

end
-- ==== Proof.KStages0.lean ====
import proofs.«430351_j36395552866780_1_alg».proof.Proof.KStages

noncomputable section

namespace Cert.KernelIdeal.Stages

open Idealize.ShloMosaic Idealize.ShloMosaic.TcCoe
open Cert.KernelIdeal.Gen

theorem run0_v1 (W : Valuation τ sig (Elt Ideal)) :
    (StableHlo.after (hostOps0 (F := Ideal)) W main_v1 : EVec) = srcVec (W main_arg1) := by
  after_results; rfl

theorem run0_v4 (W : Valuation τ sig (Elt Ideal)) :
    (StableHlo.after (hostOps0 (F := Ideal)) W main_v4 : ECol) = dstCol (W main_arg1) := by
  after_results; rfl

theorem run0_v11 (W : Valuation τ sig (Elt Ideal)) :
    (StableHlo.after (hostOps0 (F := Ideal)) W main_v11 : FVec Ideal S5000000x8 .f32)
      = gather8 (W main_arg0) (idxCol (srcVec (W main_arg1))) := by
  after_results; rfl

end Cert.KernelIdeal.Stages

end
-- ==== Proof.KStages1.lean ====
import proofs.«430351_j36395552866780_1_alg».proof.Proof.KStages

noncomputable section

namespace Cert.KernelIdeal.Stages

open Idealize.ShloMosaic Idealize.ShloMosaic.TcCoe
open Cert.KernelIdeal.Gen

abbrev ops1 : List (HloOp τ sig (Elt Ideal)) := hostOps1 ++ (hostOps1_1 ++ (hostOps1_2 ++ (hostOps1_3 ++ hostOps1_4)))

theorem run1_v49 (W : Valuation τ sig (Elt Ideal)) :
    (StableHlo.after ops1 W main_v49 : X16)
      = Block1 (W main_arg0) (W main_arg2) (W main_arg3) (W main_arg4) (W main_arg5) (W main_arg6) (W main_arg7) (W main_arg8) (W main_arg9) (W main_arg10) (W main_v12) := by
  simp only [ops1, hostOps1, hostOps1_1, hostOps1_2, hostOps1_3, hostOps1_4, List.cons_append, List.nil_append]
  after_results_simp
  rfl

theorem run1_v56 (W : Valuation τ sig (Elt Ideal)) :
    (StableHlo.after ops1 W main_v56 : FVec Ideal S5000000x16 .f32)
      = gather16 (StableHlo.after ops1 W main_v49) (idxCol (W main_v1)) := by
  simp only [ops1, hostOps1, hostOps1_1, hostOps1_2, hostOps1_3, hostOps1_4, List.cons_append, List.nil_append]
  after_results_simp
  rfl

end Cert.KernelIdeal.Stages

end
-- ==== Proof.KStages2.lean ====
import proofs.«430351_j36395552866780_1_alg».proof.Proof.KStages

noncomputable section

namespace Cert.KernelIdeal.Stages

open Idealize.ShloMosaic Idealize.ShloMosaic.TcCoe
open Cert.KernelIdeal.Gen

abbrev ops2 : List (HloOp τ sig (Elt Ideal)) := hostOps2 ++ (hostOps2_1 ++ (hostOps2_2 ++ (hostOps2_3 ++ hostOps2_4)))

theorem run2_v94 (W : Valuation τ sig (Elt Ideal)) :
    (StableHlo.after ops2 W main_v94 : X16)
      = BlockR (W main_v49) (W main_arg11) (W main_arg12) (W main_arg13) (W main_arg14) (W main_arg15) (W main_arg16) (W main_arg17) (W main_arg18) (W main_arg19) (W main_v57) := by
  simp only [ops2, hostOps2, hostOps2_1, hostOps2_2, hostOps2_3, hostOps2_4, List.cons_append, List.nil_append]
  after_results_simp
  rfl

theorem run2_v101 (W : Valuation τ sig (Elt Ideal)) :
    (StableHlo.after ops2 W main_v101 : FVec Ideal S5000000x16 .f32)
      = gather16 (StableHlo.after ops2 W main_v94) (idxCol (W main_v1)) := by
  simp only [ops2, hostOps2, hostOps2_1, hostOps2_2, hostOps2_3, hostOps2_4, List.cons_append, List.nil_append]
  after_results_simp
  rfl

end Cert.KernelIdeal.Stages

end
-- ==== Proof.KStages3.lean ====
import proofs.«430351_j36395552866780_1_alg».proof.Proof.KStages

noncomputable section

namespace Cert.KernelIdeal.Stages

open Idealize.ShloMosaic Idealize.ShloMosaic.TcCoe
open Cert.KernelIdeal.Gen

abbrev ops3 : List (HloOp τ sig (Elt Ideal)) := hostOps3 ++ (hostOps3_1 ++ (hostOps3_2 ++ (hostOps3_3 ++ hostOps3_4)))

theorem run3_v139 (W : Valuation τ sig (Elt Ideal)) :
    (StableHlo.after ops3 W main_v139 : X16)
      = BlockR (W main_v94) (W main_arg20) (W main_arg21) (W main_arg22) (W main_arg23) (W main_arg24) (W main_arg25) (W main_arg26) (W main_arg27) (W main_arg28) (W main_v102) := by
  simp only [ops3, hostOps3, hostOps3_1, hostOps3_2, hostOps3_3, hostOps3_4, List.cons_append, List.nil_append]
  after_results_simp
  rfl

end Cert.KernelIdeal.Stages

end
-- ==== Proof.Enc.lean ====
import proofs.«430351_j36395552866780_1_alg».proof.Proof.KStages
import proofs.«430351_j36395552866780_1_alg».proof.Proof.SegSumSpec

noncomputable section

namespace Cert.KernelIdeal.Stages

open Idealize.ShloMosaic
open Cert.SegSumSpec

structure Params where
  x : X8
  ei : EdgeIx
  eps1 : Sc
  w11 : M8
  b11 : R16
  w12 : M16
  b12 : R16
  rw1 : M8
  rb1 : R16
  g1 : R16
  be1 : R16
  eps2 : Sc
  w21 : M16
  b21 : R16
  w22 : M16
  b22 : R16
  rw2 : M16
  rb2 : R16
  g2 : R16
  be2 : R16
  eps3 : Sc
  w31 : M16
  b31 : R16
  w32 : M16
  b32 : R16
  rw3 : M16
  rb3 : R16
  g3 : R16
  be3 : R16

def agg8 (d : ECol) (u : FVec Ideal S5000000x8 .f32) : X8 := segSum 100000 5000000 8 d u

def agg16 (d : ECol) (u : FVec Ideal S5000000x16 .f32) : X16 := segSum 100000 5000000 16 d u

def srcIdx (p : Params) : ECol := idxCol (srcVec p.ei)

def enc1 (p : Params) : X16 :=
  Block1 p.x p.eps1 p.w11 p.b11 p.w12 p.b12 p.rw1 p.rb1 p.g1 p.be1 (agg8 (dstCol p.ei) (gather8 p.x (srcIdx p)))

def enc2 (p : Params) : X16 :=
  BlockR (enc1 p) p.eps2 p.w21 p.b21 p.w22 p.b22 p.rw2 p.rb2 p.g2 p.be2 (agg16 (dstCol p.ei) (gather16 (enc1 p) (srcIdx p)))

def enc3 (p : Params) : X16 :=
  BlockR (enc2 p) p.eps3 p.w31 p.b31 p.w32 p.b32 p.rw3 p.rb3 p.g3 p.be3 (agg16 (dstCol p.ei) (gather16 (enc2 p) (srcIdx p)))

end Cert.KernelIdeal.Stages

end
-- ==== Proof.KChain.lean ====
import proofs.«430351_j36395552866780_1_alg».proof.Proof.KStages0
import proofs.«430351_j36395552866780_1_alg».proof.Proof.KStages1
import proofs.«430351_j36395552866780_1_alg».proof.Proof.KStages2
import proofs.«430351_j36395552866780_1_alg».proof.Proof.KStages3
import proofs.«430351_j36395552866780_1_alg».proof.Proof.Enc

noncomputable section

namespace Cert.KernelIdeal.Stages

open Idealize.ShloMosaic Idealize.ShloMosaic.TcCoe
open Cert.KernelIdeal.Gen

open Cert.SegSumSpec

variable {m : (ℓ : Loc nD τ sig) → Buf (Elt Ideal) ℓ} {outs : Outs (F := Ideal)} {c : Dev nD}

theorem V7_eq : V7 m outs c = StableHlo.after ops1 (V2 m outs c) := by
  rw [ops1, StableHlo.after_append, StableHlo.after_append, StableHlo.after_append, StableHlo.after_append]

theorem V13_eq : V13 m outs c = StableHlo.after ops2 (V8 m outs c) := by
  rw [ops2, StableHlo.after_append, StableHlo.after_append, StableHlo.after_append, StableHlo.after_append]

theorem V19_eq : V19 m outs c = StableHlo.after ops3 (V14 m outs c) := by
  rw [ops3, StableHlo.after_append, StableHlo.after_append, StableHlo.after_append, StableHlo.after_append]

theorem V1_v1 : (V1 m c main_v1 : EVec) = srcVec (m ((c : Thread nD τ).loc main_arg1)) := run0_v1 _
theorem V1_v4 : (V1 m c main_v4 : ECol) = dstCol (m ((c : Thread nD τ).loc main_arg1)) := run0_v4 _
theorem V1_v11 : (V1 m c main_v11 : FVec Ideal S5000000x8 .f32)
    = gather8 (m ((c : Thread nD τ).loc main_arg0)) (idxCol (srcVec (m ((c : Thread nD τ).loc main_arg1)))) := run0_v11 _

/-- No item from the first region through the second writes `r`. -/
abbrev Old8 (r : Ref sig .tc) : Prop :=
  r ∉ ([main_v12] : List (Ref sig .tc)) ∧ r ∉ hostOps1_W ∧ r ∉ hostOps1_1_W ∧ r ∉ hostOps1_2_W ∧ r ∉ hostOps1_3_W ∧ r ∉ hostOps1_4_W ∧ r ∉ ([main_v57] : List (Ref sig .tc))

/-- No item after the second region through the third writes `r`. -/
abbrev Old14 (r : Ref sig .tc) : Prop :=
  r ∉ hostOps2_W ∧ r ∉ hostOps2_1_W ∧ r ∉ hostOps2_2_W ∧ r ∉ hostOps2_3_W ∧ r ∉ hostOps2_4_W ∧ r ∉ ([main_v102] : List (Ref sig .tc))

/-- A name written by nothing in between still holds what the first stretch left: one step per item. -/
theorem keep8 (r : Ref sig .tc) (h : Old8 r := by decide) : V8 m outs c r = V1 m c r := by
  obtain ⟨h2, h3, h4, h5, h6, h7, h8⟩ := h
  exact (V8_of m outs c r h8).trans <| (V7_of m outs c r h7).trans <| (V6_of m outs c r h6).trans <| (V5_of m outs c r h5).trans <|
    (V4_of m outs c r h4).trans <| (V3_of m outs c r h3).trans (V2_of m outs c r h2)

theorem keep14 (r : Ref sig .tc) (h : Old14 r := by decide) (h' : Old8 r := by decide) : V14 m outs c r = V1 m c r := by
  obtain ⟨h9, h10, h11, h12, h13, h14⟩ := h
  exact (V14_of m outs c r h14).trans <| (V13_of m outs c r h13).trans <| (V12_of m outs c r h12).trans <| (V11_of m outs c r h11).trans <|
    (V10_of m outs c r h10).trans <| (V9_of m outs c r h9).trans (keep8 r h')

/-- An argument reaches each region's end as launched: nothing writes it. -/
theorem arg2 (r : Ref sig .tc) (h0 : r ∉ hostOps0_W := by decide) (h : r ∉ ([main_v12] : List (Ref sig .tc)) := by decide) :
    V2 m outs c r = V0 m c r := (V2_of m outs c r h).trans (V1_of m c r h0)

theorem arg8 (r : Ref sig .tc) (h0 : r ∉ hostOps0_W := by decide) (h : Old8 r := by decide) :
    V8 m outs c r = V0 m c r := (keep8 r h).trans (V1_of m c r h0)

theorem arg14 (r : Ref sig .tc) (h0 : r ∉ hostOps0_W := by decide) (h : Old14 r := by decide) (h' : Old8 r := by decide) :
    V14 m outs c r = V0 m c r := (keep14 r h h').trans (V1_of m c r h0)

theorem V2_v12 : V2 m outs c main_v12 = outs 2 main_v12 c := by
  simp only [V2, Function.update_self]
theorem V8_v57 : V8 m outs c main_v57 = outs 8 main_v57 c := by
  simp only [V8, Function.update_self]
theorem V14_v102 : V14 m outs c main_v102 = outs 14 main_v102 c := by
  simp only [V14, Function.update_self]

theorem V7_v4 : V7 m outs c main_v4 = V1 m c main_v4 := (V8_of m outs c main_v4 (by decide)).symm.trans (keep8 main_v4)
theorem V13_v4 : V13 m outs c main_v4 = V1 m c main_v4 := (V14_of m outs c main_v4 (by decide)).symm.trans (keep14 main_v4)

theorem V7_v56 : (V7 m outs c main_v56 : FVec Ideal S5000000x16 .f32)
    = gather16 (V7 m outs c main_v49) (idxCol (srcVec (m ((c : Thread nD τ).loc main_arg1)))) := by
  rw [V7_eq, run1_v56, run1_v49, V2_of m outs c main_v1 (by decide), V1_v1]

theorem V13_v101 : (V13 m outs c main_v101 : FVec Ideal S5000000x16 .f32)
    = gather16 (V13 m outs c main_v94) (idxCol (srcVec (m ((c : Thread nD τ).loc main_arg1)))) := by
  rw [V13_eq, run2_v101, run2_v94, keep8 main_v1, V1_v1]

variable (m) (outs) (c)

def kParams : Params :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20),
   m ((c : Thread nD τ).loc main_arg21),
   m ((c : Thread nD τ).loc main_arg22),
   m ((c : Thread nD τ).loc main_arg23),
   m ((c : Thread nD τ).loc main_arg24),
   m ((c : Thread nD τ).loc main_arg25),
   m ((c : Thread nD τ).loc main_arg26),
   m ((c : Thread nD τ).loc main_arg27),
   m ((c : Thread nD τ).loc main_arg28)⟩

/-- Each block's host stretch applies the block to untouched arguments, the features before it, and the region's segment sum. -/
theorem kernel_result
    (h2 : outs 2 main_v12 c = segSum 100000 5000000 8 (V1 m c main_v4) (V1 m c main_v11))
    (h8 : outs 8 main_v57 c = segSum 100000 5000000 16 (V7 m outs c main_v4) (V7 m outs c main_v56))
    (h14 : outs 14 main_v102 c = segSum 100000 5000000 16 (V13 m outs c main_v4) (V13 m outs c main_v101)) :
    (V19 m outs c main_v139 : X16) = enc3 (kParams m c) := by
  have e1 : (V7 m outs c main_v49 : X16) = enc1 (kParams m c) := by
    rw [V7_eq, run1_v49, arg2 main_arg0, arg2 main_arg2, arg2 main_arg3, arg2 main_arg4, arg2 main_arg5, arg2 main_arg6, arg2 main_arg7, arg2 main_arg8, arg2 main_arg9, arg2 main_arg10, V2_v12, h2, V1_v4, V1_v11]; rfl
  have e2 : (V13 m outs c main_v94 : X16) = enc2 (kParams m c) := by
    rw [V13_eq, run2_v94, arg8 main_arg11, arg8 main_arg12, arg8 main_arg13, arg8 main_arg14, arg8 main_arg15, arg8 main_arg16, arg8 main_arg17, arg8 main_arg18, arg8 main_arg19, V8_v57, V8_of m outs c main_v49 (by decide), h8, V7_v4, V1_v4, V7_v56, e1]; rfl
  rw [V19_eq, run3_v139, arg14 main_arg20, arg14 main_arg21, arg14 main_arg22, arg14 main_arg23, arg14 main_arg24, arg14 main_arg25, arg14 main_arg26, arg14 main_arg27, arg14 main_arg28, V14_v102, V14_of m outs c main_v94 (by decide), h14, V13_v4, V1_v4, V13_v101, e2]; rfl

end Cert.KernelIdeal.Stages

end
-- ==== Proof.RStages0.lean ====
import proofs.«430351_j36395552866780_1_alg».proof.Proof.RefOps
import proofs.«430351_j36395552866780_1_alg».proof.Proof.KStages
import Idealize.ShloMosaic.PureOps.Ideal

noncomputable section

namespace Cert.ReferenceIdeal.Stages

open Idealize.ShloMosaic Idealize.ShloMosaic.TcCoe
open Cert.ReferenceIdeal Cert.ReferenceIdeal.Gen Cert.ReferenceIdeal.RefRun
open Cert.KernelIdeal.Stages (X8 X16 EVec ECol srcVec dstVec idxCol gather8)

def bcol (v : EVec) : ECol := broadcastInDim S5000000x1 ![0] bcast_S5000000_S5000000x1_0 v

def zeros8 : X8 := broadcastInDim S100000x8 ![] bcast_S_S100000x8 (constant (F := Ideal) S_ .f32 0x00000000#32)

def zeros16 : X16 := broadcastInDim S100000x16 ![] bcast_S_S100000x16 (constant (F := Ideal) S_ .f32 0x00000000#32)

def scat8 (i : ECol) (u : FVec Ideal S5000000x8 .f32) : X8 :=
  Host.scatterAdd (F := Ideal) scatter_S100000x8_S5000000x1_S5000000x8_1_0_0_1 zeros8 i u

def scat16 (i : ECol) (u : FVec Ideal S5000000x16 .f32) : X16 :=
  Host.scatterAdd (F := Ideal) scatter_S100000x16_S5000000x1_S5000000x16_1_0_0_1 zeros16 i u

theorem rrun0_v1 (W : Valuation τ sig (Elt Ideal)) :
    (StableHlo.after (opsPre (F := Ideal)) W (Proc.devRef .tc main_v1) : EVec) = srcVec (W (Proc.devRef .tc main_arg1)) := by
  after_results; rfl

theorem rrun0_v3 (W : Valuation τ sig (Elt Ideal)) :
    (StableHlo.after (opsPre (F := Ideal)) W (Proc.devRef .tc main_v3) : EVec) = dstVec (W (Proc.devRef .tc main_arg1)) := by
  after_results; rfl

theorem rrun0_v10 (W : Valuation τ sig (Elt Ideal)) :
    (StableHlo.after (opsPre (F := Ideal)) W (Proc.devRef .tc main_v10) : FVec Ideal S5000000x8 .f32)
      = gather8 (W (Proc.devRef .tc main_arg0)) (idxCol (srcVec (W (Proc.devRef .tc main_arg1)))) := by
  after_results; rfl

end Cert.ReferenceIdeal.Stages

end
-- ==== Proof.RStages1.lean ====
import proofs.«430351_j36395552866780_1_alg».proof.Proof.RStages0
import Idealize.ShloMosaic.PureOps.Ideal

noncomputable section

namespace Cert.ReferenceIdeal.Stages

open Idealize.ShloMosaic Idealize.ShloMosaic.TcCoe
open Cert.ReferenceIdeal Cert.ReferenceIdeal.Gen Cert.ReferenceIdeal.RefRun
open Cert.KernelIdeal.Stages (X16 idxCol gather16 Block1)

theorem rrun1_v50 (W : Valuation τ sig (Elt Ideal)) :
    (StableHlo.after (opsB1 (F := Ideal)) W (Proc.devRef .tc main_v50) : X16)
      = Block1 (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10))
          (scat8 (bcol (W (Proc.devRef .tc main_v3))) (W (Proc.devRef .tc main_v10))) := by
  simp only [opsB1, varOps, rows, List.cons_append, List.nil_append]
  after_results_simp
  rfl

theorem rrun1_v57 (W : Valuation τ sig (Elt Ideal)) :
    (StableHlo.after (opsB1 (F := Ideal)) W (Proc.devRef .tc main_v57) : FVec Ideal S5000000x16 .f32)
      = gather16 (Block1 (W (Proc.devRef .tc main_arg0)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10))
          (scat8 (bcol (W (Proc.devRef .tc main_v3))) (W (Proc.devRef .tc main_v10)))) (idxCol (W (Proc.devRef .tc main_v1))) := by
  simp only [opsB1, varOps, rows, List.cons_append, List.nil_append]
  after_results_simp
  rfl

end Cert.ReferenceIdeal.Stages

end
-- ==== Proof.RStages2.lean ====
import proofs.«430351_j36395552866780_1_alg».proof.Proof.RStages0
import Idealize.ShloMosaic.PureOps.Ideal

noncomputable section

namespace Cert.ReferenceIdeal.Stages

open Idealize.ShloMosaic Idealize.ShloMosaic.TcCoe
open Cert.ReferenceIdeal Cert.ReferenceIdeal.Gen Cert.ReferenceIdeal.RefRun
open Cert.KernelIdeal.Stages (X16 idxCol gather16 BlockR)

theorem rrun2_v97 (W : Valuation τ sig (Elt Ideal)) :
    (StableHlo.after (opsB2 (F := Ideal)) W (Proc.devRef .tc main_v97) : X16)
      = BlockR (W (Proc.devRef .tc main_v50)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19))
          (scat16 (bcol (W (Proc.devRef .tc main_v3))) (W (Proc.devRef .tc main_v57))) := by
  simp only [opsB2, varOps, rows, List.cons_append, List.nil_append]
  after_results_simp
  rfl

theorem rrun2_v104 (W : Valuation τ sig (Elt Ideal)) :
    (StableHlo.after (opsB2 (F := Ideal)) W (Proc.devRef .tc main_v104) : FVec Ideal S5000000x16 .f32)
      = gather16 (BlockR (W (Proc.devRef .tc main_v50)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19))
          (scat16 (bcol (W (Proc.devRef .tc main_v3))) (W (Proc.devRef .tc main_v57)))) (idxCol (W (Proc.devRef .tc main_v1))) := by
  simp only [opsB2, varOps, rows, List.cons_append, List.nil_append]
  after_results_simp
  rfl

end Cert.ReferenceIdeal.Stages

end
-- ==== Proof.RStages3.lean ====
import proofs.«430351_j36395552866780_1_alg».proof.Proof.RStages0
import Idealize.ShloMosaic.PureOps.Ideal

noncomputable section

namespace Cert.ReferenceIdeal.Stages

open Idealize.ShloMosaic Idealize.ShloMosaic.TcCoe
open Cert.ReferenceIdeal Cert.ReferenceIdeal.Gen Cert.ReferenceIdeal.RefRun
open Cert.KernelIdeal.Stages (X16 BlockR)

theorem rrun3_v144 (W : Valuation τ sig (Elt Ideal)) :
    (StableHlo.after (opsB3 (F := Ideal)) W (Proc.devRef .tc main_v144) : X16)
      = BlockR (W (Proc.devRef .tc main_v97)) (W (Proc.devRef .tc main_arg20)) (W (Proc.devRef .tc main_arg21)) (W (Proc.devRef .tc main_arg22)) (W (Proc.devRef .tc main_arg23)) (W (Proc.devRef .tc main_arg24)) (W (Proc.devRef .tc main_arg25)) (W (Proc.devRef .tc main_arg26)) (W (Proc.devRef .tc main_arg27)) (W (Proc.devRef .tc main_arg28))
          (scat16 (bcol (W (Proc.devRef .tc main_v3))) (W (Proc.devRef .tc main_v104))) := by
  simp only [opsB3, varOps, rows, List.cons_append, List.nil_append]
  after_results_simp
  rfl

end Cert.ReferenceIdeal.Stages

end
-- ==== Proof.LibPoolScatter.lean ====
import Idealize.ShloMosaic.PureOps.Ideal
import Idealize.ShloMosaic.Lib.ValueIdx

noncomputable section

namespace Cert.LibPoolScatter

open Idealize.ShloMosaic Idealize.ShloMosaic.ValueIdx

-- Rows of an N × C update added into the rows of a G × C operand named by an N × 1 index column.
abbrev rowDims (G N C : Nat) (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

variable {G N C w : Nat} (wf : ScatterDims.WF ⟨2, ![G, C]⟩ ⟨2, ![N, 1]⟩ ⟨2, ![N, C]⟩ [1] [0] [0] 1)

theorem rowDims_start0 (j : (⟨2, ![N, C]⟩ : Shape).Idx) (idx : IVec ⟨2, ![N, 1]⟩ w) :
    (rowDims G N C wf).start j idx (0 : Fin 2) = (idx (ix2 (j 0) 0)).toInt := by
  show (idx _).toInt = _
  congr 2
  funext b
  match b with
  | ⟨0, _⟩ => rfl
  | ⟨1, _⟩ => rfl

-- An update lands at i exactly when, on every axis, its start plus its window coordinate is i's coordinate.
theorem resultIdx?_eq_some_iff {s si su : Shape} (d : ScatterDims s si su) (j : su.Idx) (idx : IVec si w) (i : s.Idx) :
    d.resultIdx? j idx = some i ↔ ∀ a, d.start j idx a + d.window j a = ((i a).val : Int) := by
  unfold ScatterDims.resultIdx?
  split
  · rename_i h
    simp only [Option.some.injEq, funext_iff, Fin.ext_iff]
    exact forall_congr' fun a => by have := h a; omega
  · rename_i h
    refine ⟨fun hf => (by cases hf), fun hi => absurd (fun a => ?_) h⟩
    have := hi a
    have := (i a).isLt
    omega

-- Update entry (n, j') lands at (g, j) exactly when row n's index word is g and the columns agree.
theorem rowDims_resultIdx (n : Fin N) (j' : Fin C) (idx : IVec ⟨2, ![N, 1]⟩ w) (g : Fin G) (j : Fin C) :
    (rowDims G N C wf).resultIdx? (ix2 n j') idx = some (ix2 g j)
      ↔ ((idx (ix2 n 0)).toInt = (g.val : Int) ∧ j' = j) := by
  rw [resultIdx?_eq_some_iff, Fin.forall_fin_two, rowDims_start0]
  show (idx (ix2 n 0)).toInt + 0 = (g.val : Int) ∧ 0 + (j'.val : Int) = (j.val : Int) ↔ _
  constructor
  · rintro ⟨ha, hb⟩
    exact ⟨by omega, Fin.ext (by omega)⟩
  · rintro ⟨ha, rfl⟩
    exact ⟨by omega, by omega⟩

-- At (g, j) a row scatter-add is the operand's entry plus the rows of upd whose index word is g.
theorem hostScatterAdd_rowDims_apply (x : (⟨2, ![G, C]⟩ : Shape).Idx → EReal) (idx : IVec ⟨2, ![N, 1]⟩ w)
    (upd : (⟨2, ![N, C]⟩ : Shape).Idx → EReal) (g : Fin G) (j : Fin C) :
    Ideal.hostScatterAdd (rowDims G N C wf) x idx upd (ix2 g j)
      = x (ix2 g j) + ∑ n : Fin N, if (idx (ix2 n 0)).toInt = (g.val : Int) then upd (ix2 n j) else 0 := by
  unfold Ideal.hostScatterAdd
  congr 1
  rw [Finset.sum_filter, sum_idx2]
  refine Finset.sum_congr rfl fun n _ => ?_
  simp only [rowDims_resultIdx wf]
  by_cases ht : (idx (ix2 n 0)).toInt = (g.val : Int) <;> simp [ht]

end Cert.LibPoolScatter

end
-- ==== Proof.RefScatterSeg.lean ====
import proofs.«430351_j36395552866780_1_alg».proof.ReferenceIdeal
import proofs.«430351_j36395552866780_1_alg».proof.Proof.LibPoolScatter
import proofs.«430351_j36395552866780_1_alg».proof.Proof.SegSumSpec

noncomputable section

namespace Cert.SegSumSpec

open Idealize.ShloMosaic Idealize.ShloMosaic.ValueIdx Cert.LibPoolScatter

theorem segSum_idx_congr (G N C : Nat) (idx idx' : IVec ⟨2, ![N, 1]⟩ 32) (upd : (⟨2, ![N, C]⟩ : Shape).Idx → EReal)
    (h : ∀ n : Fin N, idx (ix2 n 0) = idx' (ix2 n 0)) : segSum G N C idx upd = segSum G N C idx' upd := by
  funext j
  unfold segSum
  refine Finset.sum_congr rfl fun n _ => ?_
  rw [h n]

-- A row scatter-add into zeros is the segment sum.
theorem rowScatter_zero_eq {G N C : Nat} (wf idx upd z) (hz : ∀ j, z j = 0) :
    Ideal.hostScatterAdd (rowDims G N C wf) z idx upd = segSum G N C idx upd := by
  funext j
  obtain ⟨g, c, rfl⟩ : ∃ (g : Fin G) (c : Fin C), j = ix2 g c := ⟨j 0, j 1, eq_ix2 j⟩
  rw [hostScatterAdd_rowDims_apply, hz, zero_add, segSum_apply]

end Cert.SegSumSpec

namespace Cert.ReferenceIdeal.SegSum

open Idealize.ShloMosaic Cert.ReferenceIdeal Cert.SegSumSpec

variable [Facts₀]

theorem scatter8_zero_eq (idx : Vec Ideal S5000000x1 .i32) (upd : Vec Ideal S5000000x8 .f32)
    (z : Vec Ideal S100000x8 .f32) (hz : ∀ j, z j = 0) :
    Host.scatterAdd (F := Ideal) (φ := .f32) scatter_S100000x8_S5000000x1_S5000000x8_1_0_0_1 z idx upd
      = segSum 100000 5000000 8 idx upd :=
  rowScatter_zero_eq Facts₀.scatter_S100000x8_S5000000x1_S5000000x8_1_0_0_1_wf idx upd z hz

theorem scatter16_zero_eq (idx : Vec Ideal S5000000x1 .i32) (upd : Vec Ideal S5000000x16 .f32)
    (z : Vec Ideal S100000x16 .f32) (hz : ∀ j, z j = 0) :
    Host.scatterAdd (F := Ideal) (φ := .f32) scatter_S100000x16_S5000000x1_S5000000x16_1_0_0_1 z idx upd
      = segSum 100000 5000000 16 idx upd :=
  rowScatter_zero_eq Facts₀.scatter_S100000x16_S5000000x1_S5000000x16_1_0_0_1_wf idx upd z hz

end Cert.ReferenceIdeal.SegSum

end
-- ==== Proof.ColIdx.lean ====
import Idealize.ShloMosaic.Lib.ValueLayout

noncomputable section

namespace Cert.ColIdx

open Idealize.ShloMosaic Idealize.ShloMosaic.ValueIdx

-- A vector made a column by a broadcast or by a reshape reads, at row n, the vector's entry n.
theorem col_eq {α : Type} (v : (⟨1, ![5000000]⟩ : Shape).Idx → α)
    (hb : (⟨1, ![5000000]⟩ : Shape).BroadcastsInDim ⟨2, ![5000000, 1]⟩ ![0])
    (hc : (⟨1, ![5000000]⟩ : Shape).ShapeCasts ⟨2, ![5000000, 1]⟩) (n : Fin 5000000) :
    broadcastInDim ⟨2, ![5000000, 1]⟩ ![0] hb v (ix2 n 0) = shapeCast ⟨2, ![5000000, 1]⟩ v hc (ix2 n 0) := by
  refine (broadcastInDim_apply _ hb v _ (ix1 n) fun a => ?_).trans (shapeCast_apply v hc _ (ix1 n) ?_).symm
  · match a with
    | ⟨0, _⟩ =>
      show n.val = if (5000000 : Nat) = 1 then 0 else n.val
      rw [if_neg (by decide)]
  · rw [Shape.rowMajor_val_one, Shape.rowMajor_val_two]
    show n.val = n.val * 1 + 0
    omega

end Cert.ColIdx

end
-- ==== Proof.RChain.lean ====
import proofs.«430351_j36395552866780_1_alg».proof.Proof.RefRun
import proofs.«430351_j36395552866780_1_alg».proof.Proof.RStages1
import proofs.«430351_j36395552866780_1_alg».proof.Proof.RStages2
import proofs.«430351_j36395552866780_1_alg».proof.Proof.RStages3
import proofs.«430351_j36395552866780_1_alg».proof.Proof.Enc
import proofs.«430351_j36395552866780_1_alg».proof.Proof.RefScatterSeg
import proofs.«430351_j36395552866780_1_alg».proof.Proof.ColIdx
import Idealize.ShloMosaic.Lib.IdealHost

noncomputable section

namespace Cert.ReferenceIdeal.Stages

open Idealize.ShloMosaic Idealize.ShloMosaic.TcCoe Idealize.ShloMosaic.ValueIdx
open Cert.ReferenceIdeal.Gen Cert.ReferenceIdeal.RefRun
open Cert.KernelIdeal.Stages (X16 EdgeIx EVec srcVec dstVec dstCol idxCol gather8 gather16 Params agg8 agg16 enc1 enc2 enc3)
open Cert.SegSumSpec

theorem zeros8_apply (j : S100000x8.Idx) : zeros8 j = 0 := by
  unfold zeros8
  rw [broadcastInDim_scalar_apply, constant_apply, Ideal.ofBits_zero_f32]

theorem zeros16_apply (j : S100000x16.Idx) : zeros16 j = 0 := by
  unfold zeros16
  rw [broadcastInDim_scalar_apply, constant_apply, Ideal.ofBits_zero_f32]

theorem scat8_eq (e : EdgeIx) (u : FVec Ideal S5000000x8 .f32) : scat8 (bcol (dstVec e)) u = agg8 (dstCol e) u := by
  unfold scat8 agg8 bcol dstCol
  rw [Cert.ReferenceIdeal.SegSum.scatter8_zero_eq _ _ zeros8 zeros8_apply]
  exact segSum_idx_congr _ _ _ _ _ _ (fun n => Cert.ColIdx.col_eq (dstVec e) _ _ n)

theorem scat16_eq (e : EdgeIx) (u : FVec Ideal S5000000x16 .f32) : scat16 (bcol (dstVec e)) u = agg16 (dstCol e) u := by
  unfold scat16 agg16 bcol dstCol
  rw [Cert.ReferenceIdeal.SegSum.scatter16_zero_eq _ _ zeros16 zeros16_apply]
  exact segSum_idx_congr _ _ _ _ _ _ (fun n => Cert.ColIdx.col_eq (dstVec e) _ _ n)

variable {m' : (ℓ : Loc nD τ sig) → Buf (Elt Ideal) ℓ} {c : Dev nD}

variable (m') (c) in
abbrev R1 : Valuation τ sig (Elt Ideal) := StableHlo.after (opsPre (F := Ideal)) fun b => m' (c, b)
variable (m') (c) in
abbrev R2 : Valuation τ sig (Elt Ideal) := StableHlo.after (opsB1 (F := Ideal)) (R1 m' c)
variable (m') (c) in
abbrev R3 : Valuation τ sig (Elt Ideal) := StableHlo.after (opsB2 (F := Ideal)) (R2 m' c)

/-- An argument reaches each block as launched: no operation writes it. -/
theorem arg1 (r : Ref sig .tc) (h0 : r ∉ opsPre_W := by decide) : R1 m' c r = m' ((c : Thread nD τ).loc r) := opsPre_keep _ r h0

theorem arg2 (r : Ref sig .tc) (h1 : r ∉ opsB1_W := by decide) (h0 : r ∉ opsPre_W := by decide) :
    R2 m' c r = m' ((c : Thread nD τ).loc r) := (opsB1_keep _ r h1).trans (arg1 r h0)

theorem arg3 (r : Ref sig .tc) (h2 : r ∉ opsB2_W := by decide) (h1 : r ∉ opsB1_W := by decide) (h0 : r ∉ opsPre_W := by decide) :
    R3 m' c r = m' ((c : Thread nD τ).loc r) := (opsB2_keep _ r h2).trans (arg2 r h1 h0)

theorem R1_v1 : (R1 m' c main_v1 : EVec) = srcVec (m' ((c : Thread nD τ).loc main_arg1)) := rrun0_v1 _
theorem R1_v3 : (R1 m' c main_v3 : EVec) = dstVec (m' ((c : Thread nD τ).loc main_arg1)) := rrun0_v3 _
theorem R1_v10 : (R1 m' c main_v10 : FVec Ideal S5000000x8 .f32)
    = gather8 (m' ((c : Thread nD τ).loc main_arg0)) (idxCol (srcVec (m' ((c : Thread nD τ).loc main_arg1)))) := rrun0_v10 _
theorem R2_v1 : (R2 m' c main_v1 : EVec) = srcVec (m' ((c : Thread nD τ).loc main_arg1)) :=
  (opsB1_keep _ main_v1 (by decide)).trans R1_v1
theorem R2_v3 : (R2 m' c main_v3 : EVec) = dstVec (m' ((c : Thread nD τ).loc main_arg1)) :=
  (opsB1_keep _ main_v3 (by decide)).trans R1_v3
theorem R3_v3 : (R3 m' c main_v3 : EVec) = dstVec (m' ((c : Thread nD τ).loc main_arg1)) :=
  (opsB2_keep _ main_v3 (by decide)).trans R2_v3

theorem R2_v57 : (R2 m' c main_v57 : FVec Ideal S5000000x16 .f32)
    = gather16 (R2 m' c main_v50) (idxCol (srcVec (m' ((c : Thread nD τ).loc main_arg1)))) := by
  show StableHlo.after (opsB1 (F := Ideal)) (R1 m' c) (Proc.devRef .tc main_v57)
    = gather16 (StableHlo.after (opsB1 (F := Ideal)) (R1 m' c) (Proc.devRef .tc main_v50)) _
  rw [rrun1_v57, rrun1_v50, R1_v1]

theorem R3_v104 : (R3 m' c main_v104 : FVec Ideal S5000000x16 .f32)
    = gather16 (R3 m' c main_v97) (idxCol (srcVec (m' ((c : Thread nD τ).loc main_arg1)))) := by
  show StableHlo.after (opsB2 (F := Ideal)) (R2 m' c) (Proc.devRef .tc main_v104)
    = gather16 (StableHlo.after (opsB2 (F := Ideal)) (R2 m' c) (Proc.devRef .tc main_v97)) _
  rw [rrun2_v104, rrun2_v97, R2_v1]

variable (m') (c)

def rParams : Params :=
  ⟨m' ((c : Thread nD τ).loc main_arg0),
   m' ((c : Thread nD τ).loc main_arg1),
   m' ((c : Thread nD τ).loc main_arg2),
   m' ((c : Thread nD τ).loc main_arg3),
   m' ((c : Thread nD τ).loc main_arg4),
   m' ((c : Thread nD τ).loc main_arg5),
   m' ((c : Thread nD τ).loc main_arg6),
   m' ((c : Thread nD τ).loc main_arg7),
   m' ((c : Thread nD τ).loc main_arg8),
   m' ((c : Thread nD τ).loc main_arg9),
   m' ((c : Thread nD τ).loc main_arg10),
   m' ((c : Thread nD τ).loc main_arg11),
   m' ((c : Thread nD τ).loc main_arg12),
   m' ((c : Thread nD τ).loc main_arg13),
   m' ((c : Thread nD τ).loc main_arg14),
   m' ((c : Thread nD τ).loc main_arg15),
   m' ((c : Thread nD τ).loc main_arg16),
   m' ((c : Thread nD τ).loc main_arg17),
   m' ((c : Thread nD τ).loc main_arg18),
   m' ((c : Thread nD τ).loc main_arg19),
   m' ((c : Thread nD τ).loc main_arg20),
   m' ((c : Thread nD τ).loc main_arg21),
   m' ((c : Thread nD τ).loc main_arg22),
   m' ((c : Thread nD τ).loc main_arg23),
   m' ((c : Thread nD τ).loc main_arg24),
   m' ((c : Thread nD τ).loc main_arg25),
   m' ((c : Thread nD τ).loc main_arg26),
   m' ((c : Thread nD τ).loc main_arg27),
   m' ((c : Thread nD τ).loc main_arg28)⟩

/-- Each block is applied to untouched arguments, the features before it, and a scatter-add into zeros, which is the segment sum. -/
theorem reference_result :
    (StableHlo.after (ops (F := Ideal)) (fun b => m' (c, b)) (Proc.devRef .tc main_v144) : X16) = enc3 (rParams m' c) := by
  have e1 : (R2 m' c main_v50 : X16) = enc1 (rParams m' c) := by
    show StableHlo.after (opsB1 (F := Ideal)) (R1 m' c) (Proc.devRef .tc main_v50) = _
    rw [rrun1_v50, arg1 main_arg0, arg1 main_arg2, arg1 main_arg3, arg1 main_arg4, arg1 main_arg5, arg1 main_arg6, arg1 main_arg7, arg1 main_arg8, arg1 main_arg9, arg1 main_arg10, R1_v3, R1_v10, scat8_eq]; rfl
  have e2 : (R3 m' c main_v97 : X16) = enc2 (rParams m' c) := by
    show StableHlo.after (opsB2 (F := Ideal)) (R2 m' c) (Proc.devRef .tc main_v97) = _
    rw [rrun2_v97, arg2 main_arg11, arg2 main_arg12, arg2 main_arg13, arg2 main_arg14, arg2 main_arg15, arg2 main_arg16, arg2 main_arg17, arg2 main_arg18, arg2 main_arg19, R2_v3, R2_v57, e1, scat16_eq]; rfl
  rw [after_ops]
  show StableHlo.after (opsB3 (F := Ideal)) (R3 m' c) (Proc.devRef .tc main_v144) = _
  rw [rrun3_v144, arg3 main_arg20, arg3 main_arg21, arg3 main_arg22, arg3 main_arg23, arg3 main_arg24, arg3 main_arg25, arg3 main_arg26, arg3 main_arg27, arg3 main_arg28, R3_v3, R3_v104, e2, scat16_eq]; rfl

end Cert.ReferenceIdeal.Stages

end
-- ==== Proof.Algebraic.lean ====
import proofs.«430351_j36395552866780_1_alg».proof.Proof.KIRunCond
import proofs.«430351_j36395552866780_1_alg».proof.Proof.KIValue0
import proofs.«430351_j36395552866780_1_alg».proof.Proof.KIValue1
import proofs.«430351_j36395552866780_1_alg».proof.Proof.KIValue2
import proofs.«430351_j36395552866780_1_alg».proof.Proof.RefRun
import proofs.«430351_j36395552866780_1_alg».proof.Proof.KChain
import proofs.«430351_j36395552866780_1_alg».proof.Proof.RChain

noncomputable section

namespace Cert.Proof.Parts

open Idealize.ShloMosaic Idealize.ShloMosaic.TcCoe Idealize.SL.Sem
open Cert.KernelIdeal Cert.KernelIdeal.SegSum
open Cert.KernelIdeal.Stages (enc3 kParams kernel_result)
open Cert.ReferenceIdeal.Stages (rParams reference_result)

/-- Each program's result is the three-block encoder of its own arguments (every region leaves the segment sum of the
    rows it reads), and the two argument lists agree entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hpre' : Cert.Pre_ReferenceIdeal (hPre_finite_inputs := Cert.Pre_finite_inputs.Gen.facts) m' := fun c => by
    simp only [hagree c]; exact hpre c
  refine ⟨fun c => Gen.V19 m (outsD m) c main_v139, (θ_run _ _ _).mono (fun _ h c => ⟨h.1 c, h.2 c⟩) (run_and (run_cond (F := Ideal) m ρ) (frame m ρ)),
    (θ_run Cert.ReferenceIdeal.defs _ _).mono (fun r h c => ⟨(h.1 c _).trans ?_, h.2 c⟩)
      (run_and (Cert.ReferenceIdeal.RefRun.run (F := Ideal) m' ρ') (Cert.ReferenceIdeal.RefRun.frame_ri m' ρ' hpre'))⟩
  have hp : rParams m' c = kParams m c := by unfold rParams kParams; simp only [hagree c]
  exact ((reference_result m' c).trans (congrArg enc3 hp)).trans
    (kernel_result m (outsD m) c (((solves m).1 c).trans (arrAt0_eq (e0 m (outsD m)) c))
      (((solves m).2.1 c).trans (arrAt1_eq (e1 m (outsD m)) c))
      (((solves m).2.2 c).trans (arrAt2_eq (e2 m (outsD m)) c))).symm

end Cert.Proof.Parts

end
-- ==== Proof.lean ====
import proofs.«430351_j36395552866780_1_alg».proof.Defs
import proofs.«430351_j36395552866780_1_alg».proof.Proof.KFrame
import proofs.«430351_j36395552866780_1_alg».proof.Proof.KIFrame
import proofs.«430351_j36395552866780_1_alg».proof.Proof.RefRun
import proofs.«430351_j36395552866780_1_alg».proof.Proof.Algebraic

noncomputable section

namespace Cert.Proof

open Idealize.ShloMosaic Idealize.SL.Sem

/-- Each program runs and keeps its arguments, and the two idealized programs end equal: every region leaves the segment sum
    of the rows it reads, which is what the reference's scatter-add into zeros leaves. -/
theorem claim : Cert.Claim := ⟨Cert.Kernel.Gen.facts, Cert.KernelIdeal.Gen.facts, Cert.ReferenceIdeal.Gen.facts, Cert.Pre_finite_inputs.Gen.facts,
  fun m ρ _ => Cert.Kernel.SegSum.frame (F := Bits) m ρ,
  fun m ρ _ => Cert.KernelIdeal.SegSum.frame (F := Ideal) m ρ,
  Cert.ReferenceIdeal.RefRun.frame_ri,
  trivial,
  Cert.Proof.Parts.algebraic⟩

end Cert.Proof

end
